-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S1024x128 .f32) (main_arg1 : IVec S1024x1024 32) (main_arg2 : FVec F S128x128 .f32) (main_arg3 : FVec F S256x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S256x1024 : Shape := ⟨2, ![256, 1024]⟩
abbrev S128x1 : Shape := ⟨2, ![128, 1]⟩
abbrev S1024x1 : Shape := ⟨2, ![1024, 1]⟩
abbrev S1x1024 : Shape := ⟨2, ![1, 1024]⟩
abbrev S256 : Shape := ⟨1, ![256]⟩
abbrev S256x128 : Shape := ⟨2, ![256, 128]⟩

abbrev nBuf : Space → Nat
  | .hbm => 5
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S256x1, .f32⟩
  | .hbm, ⟨4, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S256x1, .f32⟩
  | .local _ .vmem, ⟨3, _⟩ => ⟨S256x1024, .i32⟩
  | .local _ .vmem, ⟨4, _⟩ => ⟨S256x1024, .i32⟩
  | .local _ .vmem, ⟨5, _⟩ => ⟨S256x1024, .i32⟩
  | .local _ .vmem, ⟨6, _⟩ => ⟨S256x1024, .i32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S256x1_S128x1_0_0 : ∀ a, (![0, 0] : Fin 2 → Nat) a + S128x1.size a ≤ S256x1.size a
  h_S128x1 : 0 < S128x1.numel
  inb_S256x1_S128x1_128_0 : ∀ a, (![128, 0] : Fin 2 → Nat) a + S128x1.size a ≤ S256x1.size a
  slices_S1024x1_o0_0_S256x1 : S1024x1.Slices ![0, 0] S256x1
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x128 : S256x1.Broadcasts S256x128
  inb_S1024x128_S256x128_0_0 : ∀ a, (![0, 0] : Fin 2 → Nat) a + S256x128.size a ≤ S1024x128.size a
  h_S256x128 : 0 < S256x128.numel
  slices_S1024x1_o256_0_S256x1 : S1024x1.Slices ![256, 0] S256x1
  inb_S1024x128_S256x128_256_0 : ∀ a, (![256, 0] : Fin 2 → Nat) a + S256x128.size a ≤ S1024x128.size a
  slices_S1024x1_o512_0_S256x1 : S1024x1.Slices ![512, 0] S256x1
  inb_S1024x128_S256x128_512_0 : ∀ a, (![512, 0] : Fin 2 → Nat) a + S256x128.size a ≤ S1024x128.size a
  slices_S1024x1_o768_0_S256x1 : S1024x1.Slices ![768, 0] S256x1
  inb_S1024x128_S256x128_768_0 : ∀ a, (![768, 0] : Fin 2 → Nat) a + S256x128.size a ≤ S1024x128.size a
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .i32 = 32 ∨ (Rect.block (s := S1024x1024) S256x1024.size (cc0_transform_3 i) (hinb0_3 i)).WholeWords (EltTy.packing .i32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .i32 = 32 ∨ (Rect.block (s := S1024x1024) S256x1024.size (cc0_transform_4 i) (hinb0_4 i)).WholeWords (EltTy.packing .i32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x1024.size a
  hwx0_5 : ∀ i : grid0.Coords, EltTy.bits .i32 = 32 ∨ (Rect.block (s := S1024x1024) S256x1024.size (cc0_transform_5 i) (hinb0_5 i)).WholeWords (EltTy.packing .i32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S1024x1024.size a
  hwx0_6 : ∀ i : grid0.Coords, EltTy.bits .i32 = 32 ∨ (Rect.block (s := S1024x1024) S256x1024.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1024.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x1024.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x1024.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S256x1024.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S256x1 : Shape := ⟨2, ![256, 1]⟩
abbrev S_ : Shape := ⟨0, ![]⟩
abbrev S1048576 : Shape := ⟨1, ![1048576]⟩
abbrev S1048576x1 : Shape := ⟨2, ![1048576, 1]⟩
abbrev S1x1048576 : Shape := ⟨2, ![1, 1048576]⟩
abbrev S2x1048576 : Shape := ⟨2, ![2, 1048576]⟩
abbrev S1048576x128 : Shape := ⟨2, ![1048576, 128]⟩
abbrev S1048576x256 : Shape := ⟨2, ![1048576, 256]⟩
abbrev S256x1048576 : Shape := ⟨2, ![256, 1048576]⟩
abbrev S1x256 : Shape := ⟨2, ![1, 256]⟩
abbrev S1024x1 : Shape := ⟨2, ![1024, 1]⟩

abbrev nBuf : Space → Nat
  | .hbm => 226
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S256x1, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1x1048576, .i32⟩
  | 125 => ⟨S1x1048576, .i32⟩
  | 126 => ⟨S2x1048576, .i32⟩
  | 127 => ⟨S1024x128, .f32⟩
  | _ => ⟨S1024x128, .f32⟩

abbrev hbmTy0_1 (i : Nat) : BufTy := match i % 128 with
  | 0 => ⟨S1x1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x128, .f32⟩
  | 11 => ⟨S1x1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x128, .f32⟩
  | 22 => ⟨S1048576x256, .f32⟩
  | 23 => ⟨S256x1048576, .f32⟩
  | 24 => ⟨S1x256, .f32⟩
  | 25 => ⟨S1x1048576, .f32⟩
  | 26 => ⟨S1048576, .f32⟩
  | 27 => ⟨S_, .f32⟩
  | 28 => ⟨S_, .f32⟩
  | 29 => ⟨S1048576, .f32⟩
  | 30 => ⟨S1048576, .i1⟩
  | 31 => ⟨S_, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S_, .f32⟩
  | 38 => ⟨S1024x1, .f32⟩
  | 39 => ⟨S1x1048576, .i32⟩
  | 40 => ⟨S1048576, .i32⟩
  | 41 => ⟨S1048576x1, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1024x1, .f32⟩
  | 51 => ⟨S_, .f32⟩
  | 52 => ⟨S1024x128, .f32⟩
  | 53 => ⟨S1x1048576, .i32⟩
  | 54 => ⟨S1048576, .i32⟩
  | 55 => ⟨S1048576x1, .f32⟩
  | 56 => ⟨S1x1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S1048576x128, .f32⟩
  | 67 => ⟨S1048576x128, .f32⟩
  | 68 => ⟨S1048576x128, .f32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1024x128, .f32⟩
  | 78 => ⟨S_, .f32⟩
  | 79 => ⟨S1024x1, .f32⟩
  | 80 => ⟨S1024x1, .f32⟩
  | 81 => ⟨S1024x128, .f32⟩
  | 82 => ⟨S1024x128, .f32⟩
  | 83 => ⟨S_, .f32⟩
  | 84 => ⟨S1024x128, .f32⟩
  | 85 => ⟨S1024x128, .i1⟩
  | 86 => ⟨S_, .f32⟩
  | 87 => ⟨S1024x128, .f32⟩
  | 88 => ⟨S1024x128, .i1⟩
  | 89 => ⟨S_, .f32⟩
  | 90 => ⟨S_, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_c_12 : Ref sig .tc := ⟨.hbm, 130, rfl⟩
abbrev main_v31 : Ref sig .tc := ⟨.hbm, 131, rfl⟩
abbrev main_v32 : Ref sig .tc := ⟨.hbm, 132, rfl⟩
abbrev main_c_13 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_c_14 : Ref sig .tc := ⟨.hbm, 141, rfl⟩
abbrev main_v40 : Ref sig .tc := ⟨.hbm, 142, rfl⟩
abbrev main_v41 : Ref sig .tc := ⟨.hbm, 143, rfl⟩
abbrev main_c_15 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst : Ref sig .tc := ⟨.hbm, 155, rfl⟩
abbrev main_call9_cst : Ref sig .tc := ⟨.hbm, 156, rfl⟩
abbrev main_call9_v0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_16 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_c_17 : Ref sig .tc := ⟨.hbm, 170, rfl⟩
abbrev main_v59 : Ref sig .tc := ⟨.hbm, 171, rfl⟩
abbrev main_v60 : Ref sig .tc := ⟨.hbm, 172, rfl⟩
abbrev main_c_18 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst_19 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_c_20 : Ref sig .tc := ⟨.hbm, 186, rfl⟩
abbrev main_v72 : Ref sig .tc := ⟨.hbm, 187, rfl⟩
abbrev main_v73 : Ref sig .tc := ⟨.hbm, 188, rfl⟩
abbrev main_c_21 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_c_22 : Ref sig .tc := ⟨.hbm, 197, rfl⟩
abbrev main_v81 : Ref sig .tc := ⟨.hbm, 198, rfl⟩
abbrev main_v82 : Ref sig .tc := ⟨.hbm, 199, rfl⟩
abbrev main_c_23 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_cst_24 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_cst_0 : Ref sig .tc := ⟨.hbm, 214, rfl⟩
abbrev main_call10_v2 : Ref sig .tc := ⟨.hbm, 215, rfl⟩
abbrev main_call10_v3 : Ref sig .tc := ⟨.hbm, 216, rfl⟩
abbrev main_call10_cst_1 : Ref sig .tc := ⟨.hbm, 217, rfl⟩
abbrev main_call10_call0_v0 : Ref sig .tc := ⟨.hbm, 218, rfl⟩
abbrev main_call10_call0_v1 : Ref sig .tc := ⟨.hbm, 219, rfl⟩
abbrev main_call10_v4 : Ref sig .tc := ⟨.hbm, 220, rfl⟩
abbrev main_call10_v5 : Ref sig .tc := ⟨.hbm, 221, rfl⟩
abbrev main_call10_cst_2 : Ref sig .tc := ⟨.hbm, 222, rfl⟩
abbrev main_call10_v6 : Ref sig .tc := ⟨.hbm, 223, rfl⟩
abbrev main_call10_v7 : Ref sig .tc := ⟨.hbm, 224, rfl⟩
abbrev main_v92 : Ref sig .tc := ⟨.hbm, 225, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576x128_S1048576x128_S1048576x256_d1 : Shape.Concatenates [S1048576x128, S1048576x128] S1048576x256 1
  transposes_S1048576x256_S256x1048576_1_0 : S1048576x256.Transposes [1, 0] S256x1048576
  transposes_S256x1_S1x256_1_0 : S256x1.Transposes [1, 0] S1x256
  bcast_S_S1024x1 : S_.BroadcastsInDim S1024x1 (![] : Fin 0 → Fin S1024x1.rank)
  bcast_S_S1024x128 : S_.BroadcastsInDim S1024x128 (![] : Fin 0 → Fin S1024x128.rank)
  bcast_S1048576x1_S1048576x128_0_1 : S1048576x1.BroadcastsInDim S1048576x128 (![0, 1] : Fin 2 → Fin S1048576x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024x1_S1048576x1_S1048576x1_1_0_0_1_wf : ScatterDims.WF S1024x1 S1048576x1 S1048576x1 [1] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024x1_S1048576x1_S1048576x1_1_0_0_1 : ScatterDims S1024x1 S1048576x1 S1048576x1 where
  updateWindowDims := [1]
  insertedWindowDims := [0]
  scatterDimsToOperandDims := [0]
  indexVectorDim := 1
  wf := scatter_S1024x1_S1048576x1_S1048576x1_1_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.KOutBits.lean ====
/-
  The kernel's result as one function of its four arguments, the rows taken 256 at a time.
-/
import proofs.«147569_g13718125543874_cont_sun_m_270_16_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

def adjRows (q : Fin 4) (ADJ : Vec F S1024x1024 .i32) : Vec F S256x1024 .i32 :=
  fun y => ADJ (ix2 (⟨q.val * 256 + (y 0).val, by have := idx2_lt0 y; have := q.isLt; omega⟩ : Fin 1024) (y 1))

def aLo (A : Vec F S256x1 .f32) : Vec F S128x1 .f32 :=
  fun y => A (ix2 (⟨(y 0).val, by have := idx2_lt0 y; omega⟩ : Fin 256) (y 1))

def aHi (A : Vec F S256x1 .f32) : Vec F S128x1 .f32 :=
  fun y => A (ix2 (⟨128 + (y 0).val, by have := idx2_lt0 y; omega⟩ : Fin 256) (y 1))

def piece (q : Fin 4) (X : Vec F S1024x128 .f32) (ADJ : Vec F S1024x1024 .i32) (W : Vec F S128x128 .f32)
    (A : Vec F S256x1 .f32) : FVec F S256x128 .f32 :=
  match q with
  | 0 => k0_pay8 (k0_pay5 X W (aLo A) (aHi A) (adjRows 0 ADJ)) (k0_pay6 X W (aLo A) (aHi A) (adjRows 0 ADJ))
          (k0_pay7 X W (aLo A) (aHi A) (adjRows 0 ADJ))
  | 1 => k0_pay9 (k0_pay2 X W) (k0_pay3 X W (aLo A)) (k0_pay4 X W (aHi A)) (adjRows 1 ADJ)
  | 2 => k0_pay12 (k0_pay2 X W) (k0_pay10 (k0_pay3 X W (aLo A))) (k0_pay11 (k0_pay4 X W (aHi A))) (adjRows 2 ADJ)
  | 3 => k0_pay1 (k0_pay2 X W) (k0_pay13 (k0_pay3 X W (aLo A)) (k0_pay4 X W (aHi A))) (adjRows 3 ADJ)

def kout (X : Vec F S1024x128 .f32) (ADJ : Vec F S1024x1024 .i32) (W : Vec F S128x128 .f32) (A : Vec F S256x1 .f32) :
    Vec F S1024x128 .f32 :=
  fun i => piece (⟨(i 0).val / 256, by have := idx2_lt0 i; omega⟩ : Fin 4) X ADJ W A
    (ix2 (⟨(i 0).val % 256, by omega⟩ : Fin 256) (i 1))

end Cert.Kernel.Hand

end
-- ==== Proof.KFrameBits.lean ====
/-
  The run of the kernel program: it ends, with its result at one function of the four arguments and the arguments as they were.
-/
import proofs.«147569_g13718125543874_cont_sun_m_270_16_alg».proof.Proof.Gen.Kernel.Launch
import proofs.«147569_g13718125543874_cont_sun_m_270_16_alg».proof.Proof.Gen.Kernel.Skeleton
import proofs.«147569_g13718125543874_cont_sun_m_270_16_alg».proof.Proof.Gen.Kernel.Points
import proofs.«147569_g13718125543874_cont_sun_m_270_16_alg».proof.Proof.KOutBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rALo : Rect S256x1 := Rect.unit (s := S256x1) ![0, 0] S128x1.size inb_S256x1_S128x1_0_0
abbrev rAHi : Rect S256x1 := Rect.unit (s := S256x1) ![128, 0] S128x1.size inb_S256x1_S128x1_128_0
abbrev rJ : Rect S256x1024 := Rect.unit (s := S256x1024) ![0, 0] S256x1024.size inb_S256x1024_S256x1024_0_0
abbrev rO0 : Rect S1024x128 := Rect.unit (s := S1024x128) ![0, 0] S256x128.size inb_S1024x128_S256x128_0_0
abbrev rO1 : Rect S1024x128 := Rect.unit (s := S1024x128) ![256, 0] S256x128.size inb_S1024x128_S256x128_256_0
abbrev rO2 : Rect S1024x128 := Rect.unit (s := S1024x128) ![512, 0] S256x128.size inb_S1024x128_S256x128_512_0
abbrev rO3 : Rect S1024x128 := Rect.unit (s := S1024x128) ![768, 0] S256x128.size inb_S1024x128_S256x128_768_0

def pieceL (q : Fin 4) (X : Vec F S1024x128 .f32) (W : Vec F S128x128 .f32) (lo hi : Vec F S128x1 .f32)
    (J : Vec F S256x1024 .i32) : FVec F S256x128 .f32 :=
  match q with
  | 0 => k0_pay8 (k0_pay5 X W lo hi J) (k0_pay6 X W lo hi J) (k0_pay7 X W lo hi J)
  | 1 => k0_pay9 (k0_pay2 X W) (k0_pay3 X W lo) (k0_pay4 X W hi) J
  | 2 => k0_pay12 (k0_pay2 X W) (k0_pay10 (k0_pay3 X W lo)) (k0_pay11 (k0_pay4 X W hi)) J
  | 3 => k0_pay1 (k0_pay2 X W) (k0_pay13 (k0_pay3 X W lo) (k0_pay4 X W hi)) J

def canon4 (X : Vec F S1024x128 .f32) (W : Vec F S128x128 .f32) (lo hi : Vec F S128x1 .f32)
    (J0 J1 J2 J3 : Vec F S256x1024 .i32) : Vec F S1024x128 .f32 :=
  View.canon [⟨rO3, pieceL 3 X W lo hi J3⟩, ⟨rO2, pieceL 2 X W lo hi J2⟩, ⟨rO1, pieceL 1 X W lo hi J1⟩, ⟨rO0, pieceL 0 X W lo hi J0⟩]

def outBuf (x0 : Vec F S1024x128 .f32) (x1 : Vec F S128x128 .f32) (x2 : Vec F S256x1 .f32)
    (x3 x4 x5 x6 : Vec F S256x1024 .i32) : Vec F S1024x128 .f32 :=
  canon4 (View.ld x0 rX) (View.ld x1 rW) (View.ld x2 rALo) (View.ld x2 rAHi) (View.ld x3 rJ) (View.ld x4 rJ) (View.ld x5 rJ) (View.ld x6 rJ)

theorem coverOut (p3 p2 p1 p0 : Vec F S256x128 .f32) (y : S1024x128.Idx) :
    ∃ pc ∈ ([⟨rO3, p3⟩, ⟨rO2, p2⟩, ⟨rO1, p1⟩, ⟨rO0, p0⟩] : List (View.Piece (Elt F) S1024x128 .f32)), y ∈ pc.1.set :=
  View.cover_of_tiled [⟨rO3, p3⟩, ⟨rO2, p2⟩, ⟨rO1, p1⟩, ⟨rO0, p0⟩] S256x128.size (by rfl) y

set_option maxHeartbeats 4000000 in
theorem sound_kernel (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S256x1 .f32) (harg3 : arg3.IsWhole) (arg4 : Memref sig .tc .vmem S256x1024 .i32) (harg4 : arg4.IsWhole)
    (arg5 : Memref sig .tc .vmem S256x1024 .i32) (harg5 : arg5.IsWhole) (arg6 : Memref sig .tc .vmem S256x1024 .i32) (harg6 : arg6.IsWhole)
    (arg7 : Memref sig .tc .vmem S256x1024 .i32) (harg7 : arg7.IsWhole) (arg8 : Memref sig .tc .vmem S1024x128 .f32) (harg8 : arg8.IsWhole)
    (x0 : Vec F S1024x128 .f32) (x1 : Vec F S128x128 .f32) (x2 : Vec F S256x1 .f32) (x3 x4 x5 x6 : Vec F S256x1024 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBuf x0 x1 x2 x3 x4 x5 x6)) -∗ K ⟨⟩))
      ⊢ wp frame (wpE (defs₀ (F := F)) Variants.none c none) E
          (cc0__gat_kernel i arg1 harg1 arg2 harg2 arg3 harg3 arg4 harg4 arg5 harg5 arg6 harg6 arg7 harg7 arg8 harg8) K := by
  sl_unfold [cc0__gat_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut _ _ _ _)]
  unfold outBuf canon4
  sl_unfold_run_names
  rfl

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBuf (iblk m c 0 t) (iblk m c 1 t) (iblk m c 2 t) (iblk m c 3 t) (iblk m c 4 t) (iblk m c 5 t) (iblk m c 6 t)
  Φ _ := iprop(emp)
  q w := match w with
    | ⟨0, _⟩ => fullShare
    | ⟨1, _⟩ => fullShare
    | ⟨2, _⟩ => fullShare
    | ⟨3, _⟩ => fullShare.left.left
    | ⟨4, _⟩ => fullShare.left.right
    | ⟨5, _⟩ => fullShare.right.left
    | ⟨6, _⟩ => fullShare.right.right
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = outBuf (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

theorem bigSep_arrs {M : Type} [URA M] (Φ : Ref sig .tc → sProp M) :
    bigSep (Finset.univ.image (Pipeline.arrRef spec0)) Φ = iprop(Φ main_arg0 ∗ Φ main_arg2 ∗ Φ main_arg3 ∗ Φ main_arg1 ∗ Φ main_v0) :=
  bigSep_eq_bigSepL_of_eq [main_arg0, main_arg2, main_arg3, main_arg1, main_v0] (by decide) (by decide) Φ

theorem hsplit (c : Dev nD) : (Pipeline.arrBufs spec0 c (V m c) : sProp 𝕄) ⊢ (dats m 0 c).arrays ((dats m 0 c).arrAt · 0) := by
  have hs : ∀ w : Fin cfg0.W, (cfg0.win w).arr.view.set = Finset.univ := fun w => (arr_whole0 w).set_eq_univ
  unfold Pipeline.arrBufs Dat.arrays
  rw [bigSep_W0, bigSep_arrs]
  rw [hs 0, hs 1, hs 2, hs 3, hs 7]
  iintro ⟨H0, H2, H3, H1, Hv⟩
  ihave H1' := (pointsTo_share (PosShare.mem_left_op_right fullShare)).1 $$ H1
  icases H1' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [H0]; · iexact H0
  isplitl [H2]; · iexact H2
  isplitl [H3]; · iexact H3
  isplitl [Hll]; · iexact Hll
  isplitl [Hlr]; · iexact Hlr
  isplitl [Hrl]; · iexact Hrl
  isplitl [Hrr]; · iexact Hrr
  iexact Hv

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

set_option backward.isDefEq.respectTransparency.types false in
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

theorem hz2 : (![0, 0] : Fin 2 → Nat) = fun _ => 0 := funext fun a => by fin_cases a <;> rfl

theorem iblk0_apply (c : Dev nD) (t : Fin cfg0.N) (y : S1024x128.Idx) : iblk m c 0 t y = V m c main_arg0 y := by
  unfold iblk; rw [View.read_apply]
  refine (cast_eq _ _).trans (congrArg (V m c main_arg0) (Shape.idx_ext₂ ?_ ?_))
  · exact win0_0.rect_emb_val_of_index_zero t 0 rfl y
  · exact win0_0.rect_emb_val_of_index_zero t 1 rfl y
theorem iblk1_apply (c : Dev nD) (t : Fin cfg0.N) (y : S128x128.Idx) : iblk m c 1 t y = V m c main_arg2 y := by
  unfold iblk; rw [View.read_apply]
  refine (cast_eq _ _).trans (congrArg (V m c main_arg2) (Shape.idx_ext₂ ?_ ?_))
  · exact win0_1.rect_emb_val_of_index_zero t 0 rfl y
  · exact win0_1.rect_emb_val_of_index_zero t 1 rfl y
theorem iblk2_apply (c : Dev nD) (t : Fin cfg0.N) (y : S256x1.Idx) : iblk m c 2 t y = V m c main_arg3 y := by
  unfold iblk; rw [View.read_apply]
  refine (cast_eq _ _).trans (congrArg (V m c main_arg3) (Shape.idx_ext₂ ?_ ?_))
  · exact win0_2.rect_emb_val_of_index_zero t 0 rfl y
  · exact win0_2.rect_emb_val_of_index_zero t 1 rfl y

theorem iblk3_apply (c : Dev nD) (t : Fin cfg0.N) (y : S256x1024.Idx) : iblk m c 3 t y = adjRows 0 (V m c main_arg1) y := by
  unfold iblk adjRows; rw [View.read_apply]
  refine (cast_eq _ _).trans (congrArg (V m c main_arg1) (Shape.idx_ext₂ ?_ ?_))
  · exact (win0_3.rect_emb_val t y 0).trans rfl
  · exact win0_3.rect_emb_val_of_index_zero t 1 rfl y
theorem iblk4_apply (c : Dev nD) (t : Fin cfg0.N) (y : S256x1024.Idx) : iblk m c 4 t y = adjRows 1 (V m c main_arg1) y := by
  unfold iblk adjRows; rw [View.read_apply]
  refine (cast_eq _ _).trans (congrArg (V m c main_arg1) (Shape.idx_ext₂ ?_ ?_))
  · exact (win0_4.rect_emb_val t y 0).trans rfl
  · exact win0_4.rect_emb_val_of_index_zero t 1 rfl y
theorem iblk5_apply (c : Dev nD) (t : Fin cfg0.N) (y : S256x1024.Idx) : iblk m c 5 t y = adjRows 2 (V m c main_arg1) y := by
  unfold iblk adjRows; rw [View.read_apply]
  refine (cast_eq _ _).trans (congrArg (V m c main_arg1) (Shape.idx_ext₂ ?_ ?_))
  · exact (win0_5.rect_emb_val t y 0).trans rfl
  · exact win0_5.rect_emb_val_of_index_zero t 1 rfl y
theorem iblk6_apply (c : Dev nD) (t : Fin cfg0.N) (y : S256x1024.Idx) : iblk m c 6 t y = adjRows 3 (V m c main_arg1) y := by
  unfold iblk adjRows; rw [View.read_apply]
  refine (cast_eq _ _).trans (congrArg (V m c main_arg1) (Shape.idx_ext₂ ?_ ?_))
  · exact (win0_6.rect_emb_val t y 0).trans rfl
  · exact win0_6.rect_emb_val_of_index_zero t 1 rfl y

theorem ldX (c : Dev nD) (t : Fin cfg0.N) : View.ld (iblk m c 0 t) rX = V m c main_arg0 :=
  (View.ld_unit_zero (S := S1024x128) hz2 _ _).trans (funext (iblk0_apply m c t))
theorem ldW (c : Dev nD) (t : Fin cfg0.N) : View.ld (iblk m c 1 t) rW = V m c main_arg2 :=
  (View.ld_unit_zero (S := S128x128) hz2 _ _).trans (funext (iblk1_apply m c t))

theorem ldLo (c : Dev nD) (t : Fin cfg0.N) : View.ld (iblk m c 2 t) rALo = aLo (V m c main_arg3) := by
  funext x
  show iblk m c 2 t (rALo.emb x) = _
  rw [iblk2_apply]; unfold aLo
  exact congrArg (V m c main_arg3) (Shape.idx_ext₂ (by show 0 + 1 * (x 0).val = (x 0).val; omega) (by show 0 + 1 * (x 1).val = (x 1).val; omega))
theorem ldHi (c : Dev nD) (t : Fin cfg0.N) : View.ld (iblk m c 2 t) rAHi = aHi (V m c main_arg3) := by
  funext x
  show iblk m c 2 t (rAHi.emb x) = _
  rw [iblk2_apply]; unfold aHi
  exact congrArg (V m c main_arg3) (Shape.idx_ext₂ (by show 128 + 1 * (x 0).val = 128 + (x 0).val; omega) (by show 0 + 1 * (x 1).val = (x 1).val; omega))

theorem ldJ3 (c : Dev nD) (t : Fin cfg0.N) : View.ld (iblk m c 3 t) rJ = adjRows 0 (V m c main_arg1) :=
  (View.ld_unit_zero (S := S256x1024) hz2 _ _).trans (funext (iblk3_apply m c t))
theorem ldJ4 (c : Dev nD) (t : Fin cfg0.N) : View.ld (iblk m c 4 t) rJ = adjRows 1 (V m c main_arg1) :=
  (View.ld_unit_zero (S := S256x1024) hz2 _ _).trans (funext (iblk4_apply m c t))
theorem ldJ5 (c : Dev nD) (t : Fin cfg0.N) : View.ld (iblk m c 5 t) rJ = adjRows 2 (V m c main_arg1) :=
  (View.ld_unit_zero (S := S256x1024) hz2 _ _).trans (funext (iblk5_apply m c t))
theorem ldJ6 (c : Dev nD) (t : Fin cfg0.N) : View.ld (iblk m c 6 t) rJ = adjRows 3 (V m c main_arg1) :=
  (View.ld_unit_zero (S := S256x1024) hz2 _ _).trans (funext (iblk6_apply m c t))

theorem piece_eq_pieceL (q : Fin 4) (X : Vec F S1024x128 .f32) (ADJ : Vec F S1024x1024 .i32) (W : Vec F S128x128 .f32)
    (A : Vec F S256x1 .f32) : piece q X ADJ W A = pieceL q X W (aLo A) (aHi A) (adjRows q ADJ) := by
  fin_cases q <;> rfl

theorem kout_block (q : Fin 4) (X : Vec F S1024x128 .f32) (ADJ : Vec F S1024x1024 .i32) (W : Vec F S128x128 .f32)
    (A : Vec F S256x1 .f32) (i : S1024x128.Idx) (x : S256x128.Idx)
    (h0 : (i 0).val = q.val * 256 + (x 0).val) (h1 : (i 1).val = (x 1).val) :
    kout X ADJ W A i = piece q X ADJ W A x := by
  have hx0 := idx2_lt0 x
  have hq := q.isLt
  unfold kout
  have e1 : (⟨(i 0).val / 256, by have := idx2_lt0 i; omega⟩ : Fin 4) = q := Fin.ext (by show (i 0).val / 256 = q.val; omega)
  have e2 : (ix2 (⟨(i 0).val % 256, by omega⟩ : Fin 256) (i 1) : S256x128.Idx) = x :=
    Shape.idx_ext₂ (by show (i 0).val % 256 = (x 0).val; omega) (by show (i 1).val = (x 1).val; exact h1)
  rw [e1, e2]

theorem pieceL_eq_kout (q : Fin 4) (X : Vec F S1024x128 .f32) (ADJ : Vec F S1024x1024 .i32) (W : Vec F S128x128 .f32)
    (A : Vec F S256x1 .f32) (i : S1024x128.Idx) (x : S256x128.Idx)
    (h0 : (i 0).val = q.val * 256 + (x 0).val) (h1 : (i 1).val = (x 1).val) :
    pieceL q X W (aLo A) (aHi A) (adjRows q ADJ) x = kout X ADJ W A i :=
  ((kout_block q X ADJ W A i x h0 h1).trans (congrFun (piece_eq_pieceL q X ADJ W A) x)).symm

set_option maxHeartbeats 1000000 in
theorem canon_pieces_eq (X : Vec F S1024x128 .f32) (ADJ : Vec F S1024x1024 .i32) (W : Vec F S128x128 .f32) (A : Vec F S256x1 .f32) :
    canon4 X W (aLo A) (aHi A) (adjRows 0 ADJ) (adjRows 1 ADJ) (adjRows 2 ADJ) (adjRows 3 ADJ) = kout X ADJ W A := by
  unfold canon4
  funext i
  refine View.canon_apply_of_pieces (kout X ADJ W A) _ ?_ i (coverOut _ _ _ _ i)
  intro p hp x
  rcases List.mem_cons.mp hp with rfl | hp
  · exact pieceL_eq_kout 3 X ADJ W A (rO3.emb x) x (by show 768 + 1 * (x 0).val = 3 * 256 + (x 0).val; omega)
      (by show 0 + 1 * (x 1).val = (x 1).val; omega)
  rcases List.mem_cons.mp hp with rfl | hp
  · exact pieceL_eq_kout 2 X ADJ W A (rO2.emb x) x (by show 512 + 1 * (x 0).val = 2 * 256 + (x 0).val; omega)
      (by show 0 + 1 * (x 1).val = (x 1).val; omega)
  rcases List.mem_cons.mp hp with rfl | hp
  · exact pieceL_eq_kout 1 X ADJ W A (rO1.emb x) x (by show 256 + 1 * (x 0).val = 1 * 256 + (x 0).val; omega)
      (by show 0 + 1 * (x 1).val = (x 1).val; omega)
  rcases List.mem_cons.mp hp with rfl | hp
  · exact pieceL_eq_kout 0 X ADJ W A (rO0.emb x) x (by show 0 + 1 * (x 0).val = 0 * 256 + (x 0).val; omega)
      (by show 0 + 1 * (x 1).val = (x 1).val; omega)
  exact absurd hp List.not_mem_nil

set_option maxHeartbeats 1000000 in
theorem outBuf_eq (c : Dev nD) (t : Fin cfg0.N) :
    outBuf (iblk m c 0 t) (iblk m c 1 t) (iblk m c 2 t) (iblk m c 3 t) (iblk m c 4 t) (iblk m c 5 t) (iblk m c 6 t)
      = kout (V m c main_arg0) (V m c main_arg1) (V m c main_arg2) (V m c main_arg3) := by
  unfold outBuf
  rw [ldX, ldW, ldLo, ldHi, ldJ3, ldJ4, ldJ5, ldJ6]
  exact canon_pieces_eq (F := F) _ _ _ _

theorem final_out (c : Dev nD) : (dats m 0 c).arrAt 7 cfg0.N
    = kout (V m c main_arg0) (V m c main_arg1) (V m c main_arg2) (V m c main_arg3) := by
  refine (dats m 0 c).arrAt_eq_of_cover 7 _ (fun t _ => ?_) (fun i => ⟨t0_0, flush0_7 _, ?_⟩)
  · show (cfg0.win 7).cut (cfg0.grid.coords t) ((dats m 0 c).after 7 t) = _
    rw [after0_7, outBuf_eq]
    funext y
    rw [View.read_apply]
    refine (congrArg (kout (V m c main_arg0) (V m c main_arg1) (V m c main_arg2) (V m c main_arg3)) (Shape.idx_ext₂ ?_ ?_)).trans (cast_eq _ _).symm
    · exact (win0_7.rect_emb_val_of_index_zero t 0 rfl y).symm
    · exact (win0_7.rect_emb_val_of_index_zero t 1 rfl y).symm
  · show i ∈ ((View.whole main_v0).slice (win0_7.rect t0_0)).set
    rw [View.set_slice_whole, Rect.mem_set_unit]
    intro a
    have h0 : (i 0 : Nat) < 1024 := (i 0).isLt
    have h1 : (i 1 : Nat) < 128 := (i 1).isLt
    match a with
    | ⟨0, _⟩ => exact ⟨Nat.zero_le _, h0⟩
    | ⟨1, _⟩ => exact ⟨Nat.zero_le _, h1⟩

theorem run : θ_run (defs (F := F)) (onTc (τ := τ) (main (F := F))) ⟨m, fun _ => 0, ρ⟩ fun r => ∀ c : Dev nD,
      r.2.mem ((c.tc : Thread nD τ).loc main_v0) = kout (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c 7).trans (final_out m c),
      (h c 0).trans (((dats m 0 c).arrAt_in 0 rfl _).trans (A_eq m c 0)),
      (h c 3).trans (((dats m 0 c).arrAt_in 3 rfl _).trans (A_eq m c 3)),
      (h c 1).trans (((dats m 0 c).arrAt_in 1 rfl _).trans (A_eq m c 1)),
      (h c 2).trans (((dats m 0 c).arrAt_in 2 rfl _).trans (A_eq m c 2))⟩) (run_main m ρ)

end Cert.Kernel.Hand

end
-- ==== Proof.KOut.lean ====
/-
  The kernel's result as one function of its four arguments, the rows taken 256 at a time.
-/
import proofs.«147569_g13718125543874_cont_sun_m_270_16_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

def adjRows (q : Fin 4) (ADJ : Vec F S1024x1024 .i32) : Vec F S256x1024 .i32 :=
  fun y => ADJ (ix2 (⟨q.val * 256 + (y 0).val, by have := idx2_lt0 y; have := q.isLt; omega⟩ : Fin 1024) (y 1))

def aLo (A : Vec F S256x1 .f32) : Vec F S128x1 .f32 :=
  fun y => A (ix2 (⟨(y 0).val, by have := idx2_lt0 y; omega⟩ : Fin 256) (y 1))

def aHi (A : Vec F S256x1 .f32) : Vec F S128x1 .f32 :=
  fun y => A (ix2 (⟨128 + (y 0).val, by have := idx2_lt0 y; omega⟩ : Fin 256) (y 1))

def piece (q : Fin 4) (X : Vec F S1024x128 .f32) (ADJ : Vec F S1024x1024 .i32) (W : Vec F S128x128 .f32)
    (A : Vec F S256x1 .f32) : FVec F S256x128 .f32 :=
  match q with
  | 0 => k0_pay8 (k0_pay5 X W (aLo A) (aHi A) (adjRows 0 ADJ)) (k0_pay6 X W (aLo A) (aHi A) (adjRows 0 ADJ))
          (k0_pay7 X W (aLo A) (aHi A) (adjRows 0 ADJ))
  | 1 => k0_pay9 (k0_pay2 X W) (k0_pay3 X W (aLo A)) (k0_pay4 X W (aHi A)) (adjRows 1 ADJ)
  | 2 => k0_pay12 (k0_pay2 X W) (k0_pay10 (k0_pay3 X W (aLo A))) (k0_pay11 (k0_pay4 X W (aHi A))) (adjRows 2 ADJ)
  | 3 => k0_pay1 (k0_pay2 X W) (k0_pay13 (k0_pay3 X W (aLo A)) (k0_pay4 X W (aHi A))) (adjRows 3 ADJ)

def kout (X : Vec F S1024x128 .f32) (ADJ : Vec F S1024x1024 .i32) (W : Vec F S128x128 .f32) (A : Vec F S256x1 .f32) :
    Vec F S1024x128 .f32 :=
  fun i => piece (⟨(i 0).val / 256, by have := idx2_lt0 i; omega⟩ : Fin 4) X ADJ W A
    (ix2 (⟨(i 0).val % 256, by omega⟩ : Fin 256) (i 1))

end Cert.KernelIdeal.Hand

end
-- ==== Proof.KFrameIdeal.lean ====
/-
  The run of the kernel program: it ends, with its result at one function of the four arguments and the arguments as they were.
-/
import proofs.«147569_g13718125543874_cont_sun_m_270_16_alg».proof.Proof.Gen.KernelIdeal.Launch
import proofs.«147569_g13718125543874_cont_sun_m_270_16_alg».proof.Proof.Gen.KernelIdeal.Skeleton
import proofs.«147569_g13718125543874_cont_sun_m_270_16_alg».proof.Proof.Gen.KernelIdeal.Points
import proofs.«147569_g13718125543874_cont_sun_m_270_16_alg».proof.Proof.KOut
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rALo : Rect S256x1 := Rect.unit (s := S256x1) ![0, 0] S128x1.size inb_S256x1_S128x1_0_0
abbrev rAHi : Rect S256x1 := Rect.unit (s := S256x1) ![128, 0] S128x1.size inb_S256x1_S128x1_128_0
abbrev rJ : Rect S256x1024 := Rect.unit (s := S256x1024) ![0, 0] S256x1024.size inb_S256x1024_S256x1024_0_0
abbrev rO0 : Rect S1024x128 := Rect.unit (s := S1024x128) ![0, 0] S256x128.size inb_S1024x128_S256x128_0_0
abbrev rO1 : Rect S1024x128 := Rect.unit (s := S1024x128) ![256, 0] S256x128.size inb_S1024x128_S256x128_256_0
abbrev rO2 : Rect S1024x128 := Rect.unit (s := S1024x128) ![512, 0] S256x128.size inb_S1024x128_S256x128_512_0
abbrev rO3 : Rect S1024x128 := Rect.unit (s := S1024x128) ![768, 0] S256x128.size inb_S1024x128_S256x128_768_0

def pieceL (q : Fin 4) (X : Vec F S1024x128 .f32) (W : Vec F S128x128 .f32) (lo hi : Vec F S128x1 .f32)
    (J : Vec F S256x1024 .i32) : FVec F S256x128 .f32 :=
  match q with
  | 0 => k0_pay8 (k0_pay5 X W lo hi J) (k0_pay6 X W lo hi J) (k0_pay7 X W lo hi J)
  | 1 => k0_pay9 (k0_pay2 X W) (k0_pay3 X W lo) (k0_pay4 X W hi) J
  | 2 => k0_pay12 (k0_pay2 X W) (k0_pay10 (k0_pay3 X W lo)) (k0_pay11 (k0_pay4 X W hi)) J
  | 3 => k0_pay1 (k0_pay2 X W) (k0_pay13 (k0_pay3 X W lo) (k0_pay4 X W hi)) J

def canon4 (X : Vec F S1024x128 .f32) (W : Vec F S128x128 .f32) (lo hi : Vec F S128x1 .f32)
    (J0 J1 J2 J3 : Vec F S256x1024 .i32) : Vec F S1024x128 .f32 :=
  View.canon [⟨rO3, pieceL 3 X W lo hi J3⟩, ⟨rO2, pieceL 2 X W lo hi J2⟩, ⟨rO1, pieceL 1 X W lo hi J1⟩, ⟨rO0, pieceL 0 X W lo hi J0⟩]

def outBuf (x0 : Vec F S1024x128 .f32) (x1 : Vec F S128x128 .f32) (x2 : Vec F S256x1 .f32)
    (x3 x4 x5 x6 : Vec F S256x1024 .i32) : Vec F S1024x128 .f32 :=
  canon4 (View.ld x0 rX) (View.ld x1 rW) (View.ld x2 rALo) (View.ld x2 rAHi) (View.ld x3 rJ) (View.ld x4 rJ) (View.ld x5 rJ) (View.ld x6 rJ)

theorem coverOut (p3 p2 p1 p0 : Vec F S256x128 .f32) (y : S1024x128.Idx) :
    ∃ pc ∈ ([⟨rO3, p3⟩, ⟨rO2, p2⟩, ⟨rO1, p1⟩, ⟨rO0, p0⟩] : List (View.Piece (Elt F) S1024x128 .f32)), y ∈ pc.1.set :=
  View.cover_of_tiled [⟨rO3, p3⟩, ⟨rO2, p2⟩, ⟨rO1, p1⟩, ⟨rO0, p0⟩] S256x128.size (by rfl) y

set_option maxHeartbeats 4000000 in
theorem sound_kernel (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S256x1 .f32) (harg3 : arg3.IsWhole) (arg4 : Memref sig .tc .vmem S256x1024 .i32) (harg4 : arg4.IsWhole)
    (arg5 : Memref sig .tc .vmem S256x1024 .i32) (harg5 : arg5.IsWhole) (arg6 : Memref sig .tc .vmem S256x1024 .i32) (harg6 : arg6.IsWhole)
    (arg7 : Memref sig .tc .vmem S256x1024 .i32) (harg7 : arg7.IsWhole) (arg8 : Memref sig .tc .vmem S1024x128 .f32) (harg8 : arg8.IsWhole)
    (x0 : Vec F S1024x128 .f32) (x1 : Vec F S128x128 .f32) (x2 : Vec F S256x1 .f32) (x3 x4 x5 x6 : Vec F S256x1024 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBuf x0 x1 x2 x3 x4 x5 x6)) -∗ K ⟨⟩))
      ⊢ wp frame (wpE (defs₀ (F := F)) Variants.none c none) E
          (cc0__gat_kernel i arg1 harg1 arg2 harg2 arg3 harg3 arg4 harg4 arg5 harg5 arg6 harg6 arg7 harg7 arg8 harg8) K := by
  sl_unfold [cc0__gat_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut _ _ _ _)]
  unfold outBuf canon4
  sl_unfold_run_names
  rfl

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBuf (iblk m c 0 t) (iblk m c 1 t) (iblk m c 2 t) (iblk m c 3 t) (iblk m c 4 t) (iblk m c 5 t) (iblk m c 6 t)
  Φ _ := iprop(emp)
  q w := match w with
    | ⟨0, _⟩ => fullShare
    | ⟨1, _⟩ => fullShare
    | ⟨2, _⟩ => fullShare
    | ⟨3, _⟩ => fullShare.left.left
    | ⟨4, _⟩ => fullShare.left.right
    | ⟨5, _⟩ => fullShare.right.left
    | ⟨6, _⟩ => fullShare.right.right
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = outBuf (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

theorem bigSep_arrs {M : Type} [URA M] (Φ : Ref sig .tc → sProp M) :
    bigSep (Finset.univ.image (Pipeline.arrRef spec0)) Φ = iprop(Φ main_arg0 ∗ Φ main_arg2 ∗ Φ main_arg3 ∗ Φ main_arg1 ∗ Φ main_v0) :=
  bigSep_eq_bigSepL_of_eq [main_arg0, main_arg2, main_arg3, main_arg1, main_v0] (by decide) (by decide) Φ

theorem hsplit (c : Dev nD) : (Pipeline.arrBufs spec0 c (V m c) : sProp 𝕄) ⊢ (dats m 0 c).arrays ((dats m 0 c).arrAt · 0) := by
  have hs : ∀ w : Fin cfg0.W, (cfg0.win w).arr.view.set = Finset.univ := fun w => (arr_whole0 w).set_eq_univ
  unfold Pipeline.arrBufs Dat.arrays
  rw [bigSep_W0, bigSep_arrs]
  rw [hs 0, hs 1, hs 2, hs 3, hs 7]
  iintro ⟨H0, H2, H3, H1, Hv⟩
  ihave H1' := (pointsTo_share (PosShare.mem_left_op_right fullShare)).1 $$ H1
  icases H1' with ⟨Hl, Hr⟩
  ihave Hl' := (pointsTo_share (PosShare.mem_left_op_right fullShare.left)).1 $$ Hl
  icases Hl' with ⟨Hll, Hlr⟩
  ihave Hr' := (pointsTo_share (PosShare.mem_left_op_right fullShare.right)).1 $$ Hr
  icases Hr' with ⟨Hrl, Hrr⟩
  isplitl [H0]; · iexact H0
  isplitl [H2]; · iexact H2
  isplitl [H3]; · iexact H3
  isplitl [Hll]; · iexact Hll
  isplitl [Hlr]; · iexact Hlr
  isplitl [Hrl]; · iexact Hrl
  isplitl [Hrr]; · iexact Hrr
  iexact Hv

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

set_option backward.isDefEq.respectTransparency.types false in
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

theorem hz2 : (![0, 0] : Fin 2 → Nat) = fun _ => 0 := funext fun a => by fin_cases a <;> rfl

theorem iblk0_apply (c : Dev nD) (t : Fin cfg0.N) (y : S1024x128.Idx) : iblk m c 0 t y = V m c main_arg0 y := by
  unfold iblk; rw [View.read_apply]
  refine (cast_eq _ _).trans (congrArg (V m c main_arg0) (Shape.idx_ext₂ ?_ ?_))
  · exact win0_0.rect_emb_val_of_index_zero t 0 rfl y
  · exact win0_0.rect_emb_val_of_index_zero t 1 rfl y
theorem iblk1_apply (c : Dev nD) (t : Fin cfg0.N) (y : S128x128.Idx) : iblk m c 1 t y = V m c main_arg2 y := by
  unfold iblk; rw [View.read_apply]
  refine (cast_eq _ _).trans (congrArg (V m c main_arg2) (Shape.idx_ext₂ ?_ ?_))
  · exact win0_1.rect_emb_val_of_index_zero t 0 rfl y
  · exact win0_1.rect_emb_val_of_index_zero t 1 rfl y
theorem iblk2_apply (c : Dev nD) (t : Fin cfg0.N) (y : S256x1.Idx) : iblk m c 2 t y = V m c main_arg3 y := by
  unfold iblk; rw [View.read_apply]
  refine (cast_eq _ _).trans (congrArg (V m c main_arg3) (Shape.idx_ext₂ ?_ ?_))
  · exact win0_2.rect_emb_val_of_index_zero t 0 rfl y
  · exact win0_2.rect_emb_val_of_index_zero t 1 rfl y

theorem iblk3_apply (c : Dev nD) (t : Fin cfg0.N) (y : S256x1024.Idx) : iblk m c 3 t y = adjRows 0 (V m c main_arg1) y := by
  unfold iblk adjRows; rw [View.read_apply]
  refine (cast_eq _ _).trans (congrArg (V m c main_arg1) (Shape.idx_ext₂ ?_ ?_))
  · exact (win0_3.rect_emb_val t y 0).trans rfl
  · exact win0_3.rect_emb_val_of_index_zero t 1 rfl y
theorem iblk4_apply (c : Dev nD) (t : Fin cfg0.N) (y : S256x1024.Idx) : iblk m c 4 t y = adjRows 1 (V m c main_arg1) y := by
  unfold iblk adjRows; rw [View.read_apply]
  refine (cast_eq _ _).trans (congrArg (V m c main_arg1) (Shape.idx_ext₂ ?_ ?_))
  · exact (win0_4.rect_emb_val t y 0).trans rfl
  · exact win0_4.rect_emb_val_of_index_zero t 1 rfl y
theorem iblk5_apply (c : Dev nD) (t : Fin cfg0.N) (y : S256x1024.Idx) : iblk m c 5 t y = adjRows 2 (V m c main_arg1) y := by
  unfold iblk adjRows; rw [View.read_apply]
  refine (cast_eq _ _).trans (congrArg (V m c main_arg1) (Shape.idx_ext₂ ?_ ?_))
  · exact (win0_5.rect_emb_val t y 0).trans rfl
  · exact win0_5.rect_emb_val_of_index_zero t 1 rfl y
theorem iblk6_apply (c : Dev nD) (t : Fin cfg0.N) (y : S256x1024.Idx) : iblk m c 6 t y = adjRows 3 (V m c main_arg1) y := by
  unfold iblk adjRows; rw [View.read_apply]
  refine (cast_eq _ _).trans (congrArg (V m c main_arg1) (Shape.idx_ext₂ ?_ ?_))
  · exact (win0_6.rect_emb_val t y 0).trans rfl
  · exact win0_6.rect_emb_val_of_index_zero t 1 rfl y

theorem ldX (c : Dev nD) (t : Fin cfg0.N) : View.ld (iblk m c 0 t) rX = V m c main_arg0 :=
  (View.ld_unit_zero (S := S1024x128) hz2 _ _).trans (funext (iblk0_apply m c t))
theorem ldW (c : Dev nD) (t : Fin cfg0.N) : View.ld (iblk m c 1 t) rW = V m c main_arg2 :=
  (View.ld_unit_zero (S := S128x128) hz2 _ _).trans (funext (iblk1_apply m c t))

theorem ldLo (c : Dev nD) (t : Fin cfg0.N) : View.ld (iblk m c 2 t) rALo = aLo (V m c main_arg3) := by
  funext x
  show iblk m c 2 t (rALo.emb x) = _
  rw [iblk2_apply]; unfold aLo
  exact congrArg (V m c main_arg3) (Shape.idx_ext₂ (by show 0 + 1 * (x 0).val = (x 0).val; omega) (by show 0 + 1 * (x 1).val = (x 1).val; omega))
theorem ldHi (c : Dev nD) (t : Fin cfg0.N) : View.ld (iblk m c 2 t) rAHi = aHi (V m c main_arg3) := by
  funext x
  show iblk m c 2 t (rAHi.emb x) = _
  rw [iblk2_apply]; unfold aHi
  exact congrArg (V m c main_arg3) (Shape.idx_ext₂ (by show 128 + 1 * (x 0).val = 128 + (x 0).val; omega) (by show 0 + 1 * (x 1).val = (x 1).val; omega))

theorem ldJ3 (c : Dev nD) (t : Fin cfg0.N) : View.ld (iblk m c 3 t) rJ = adjRows 0 (V m c main_arg1) :=
  (View.ld_unit_zero (S := S256x1024) hz2 _ _).trans (funext (iblk3_apply m c t))
theorem ldJ4 (c : Dev nD) (t : Fin cfg0.N) : View.ld (iblk m c 4 t) rJ = adjRows 1 (V m c main_arg1) :=
  (View.ld_unit_zero (S := S256x1024) hz2 _ _).trans (funext (iblk4_apply m c t))
theorem ldJ5 (c : Dev nD) (t : Fin cfg0.N) : View.ld (iblk m c 5 t) rJ = adjRows 2 (V m c main_arg1) :=
  (View.ld_unit_zero (S := S256x1024) hz2 _ _).trans (funext (iblk5_apply m c t))
theorem ldJ6 (c : Dev nD) (t : Fin cfg0.N) : View.ld (iblk m c 6 t) rJ = adjRows 3 (V m c main_arg1) :=
  (View.ld_unit_zero (S := S256x1024) hz2 _ _).trans (funext (iblk6_apply m c t))

theorem piece_eq_pieceL (q : Fin 4) (X : Vec F S1024x128 .f32) (ADJ : Vec F S1024x1024 .i32) (W : Vec F S128x128 .f32)
    (A : Vec F S256x1 .f32) : piece q X ADJ W A = pieceL q X W (aLo A) (aHi A) (adjRows q ADJ) := by
  fin_cases q <;> rfl

theorem kout_block (q : Fin 4) (X : Vec F S1024x128 .f32) (ADJ : Vec F S1024x1024 .i32) (W : Vec F S128x128 .f32)
    (A : Vec F S256x1 .f32) (i : S1024x128.Idx) (x : S256x128.Idx)
    (h0 : (i 0).val = q.val * 256 + (x 0).val) (h1 : (i 1).val = (x 1).val) :
    kout X ADJ W A i = piece q X ADJ W A x := by
  have hx0 := idx2_lt0 x
  have hq := q.isLt
  unfold kout
  have e1 : (⟨(i 0).val / 256, by have := idx2_lt0 i; omega⟩ : Fin 4) = q := Fin.ext (by show (i 0).val / 256 = q.val; omega)
  have e2 : (ix2 (⟨(i 0).val % 256, by omega⟩ : Fin 256) (i 1) : S256x128.Idx) = x :=
    Shape.idx_ext₂ (by show (i 0).val % 256 = (x 0).val; omega) (by show (i 1).val = (x 1).val; exact h1)
  rw [e1, e2]

theorem pieceL_eq_kout (q : Fin 4) (X : Vec F S1024x128 .f32) (ADJ : Vec F S1024x1024 .i32) (W : Vec F S128x128 .f32)
    (A : Vec F S256x1 .f32) (i : S1024x128.Idx) (x : S256x128.Idx)
    (h0 : (i 0).val = q.val * 256 + (x 0).val) (h1 : (i 1).val = (x 1).val) :
    pieceL q X W (aLo A) (aHi A) (adjRows q ADJ) x = kout X ADJ W A i :=
  ((kout_block q X ADJ W A i x h0 h1).trans (congrFun (piece_eq_pieceL q X ADJ W A) x)).symm

set_option maxHeartbeats 1000000 in
theorem canon_pieces_eq (X : Vec F S1024x128 .f32) (ADJ : Vec F S1024x1024 .i32) (W : Vec F S128x128 .f32) (A : Vec F S256x1 .f32) :
    canon4 X W (aLo A) (aHi A) (adjRows 0 ADJ) (adjRows 1 ADJ) (adjRows 2 ADJ) (adjRows 3 ADJ) = kout X ADJ W A := by
  unfold canon4
  funext i
  refine View.canon_apply_of_pieces (kout X ADJ W A) _ ?_ i (coverOut _ _ _ _ i)
  intro p hp x
  rcases List.mem_cons.mp hp with rfl | hp
  · exact pieceL_eq_kout 3 X ADJ W A (rO3.emb x) x (by show 768 + 1 * (x 0).val = 3 * 256 + (x 0).val; omega)
      (by show 0 + 1 * (x 1).val = (x 1).val; omega)
  rcases List.mem_cons.mp hp with rfl | hp
  · exact pieceL_eq_kout 2 X ADJ W A (rO2.emb x) x (by show 512 + 1 * (x 0).val = 2 * 256 + (x 0).val; omega)
      (by show 0 + 1 * (x 1).val = (x 1).val; omega)
  rcases List.mem_cons.mp hp with rfl | hp
  · exact pieceL_eq_kout 1 X ADJ W A (rO1.emb x) x (by show 256 + 1 * (x 0).val = 1 * 256 + (x 0).val; omega)
      (by show 0 + 1 * (x 1).val = (x 1).val; omega)
  rcases List.mem_cons.mp hp with rfl | hp
  · exact pieceL_eq_kout 0 X ADJ W A (rO0.emb x) x (by show 0 + 1 * (x 0).val = 0 * 256 + (x 0).val; omega)
      (by show 0 + 1 * (x 1).val = (x 1).val; omega)
  exact absurd hp List.not_mem_nil

set_option maxHeartbeats 1000000 in
theorem outBuf_eq (c : Dev nD) (t : Fin cfg0.N) :
    outBuf (iblk m c 0 t) (iblk m c 1 t) (iblk m c 2 t) (iblk m c 3 t) (iblk m c 4 t) (iblk m c 5 t) (iblk m c 6 t)
      = kout (V m c main_arg0) (V m c main_arg1) (V m c main_arg2) (V m c main_arg3) := by
  unfold outBuf
  rw [ldX, ldW, ldLo, ldHi, ldJ3, ldJ4, ldJ5, ldJ6]
  exact canon_pieces_eq (F := F) _ _ _ _

theorem final_out (c : Dev nD) : (dats m 0 c).arrAt 7 cfg0.N
    = kout (V m c main_arg0) (V m c main_arg1) (V m c main_arg2) (V m c main_arg3) := by
  refine (dats m 0 c).arrAt_eq_of_cover 7 _ (fun t _ => ?_) (fun i => ⟨t0_0, flush0_7 _, ?_⟩)
  · show (cfg0.win 7).cut (cfg0.grid.coords t) ((dats m 0 c).after 7 t) = _
    rw [after0_7, outBuf_eq]
    funext y
    rw [View.read_apply]
    refine (congrArg (kout (V m c main_arg0) (V m c main_arg1) (V m c main_arg2) (V m c main_arg3)) (Shape.idx_ext₂ ?_ ?_)).trans (cast_eq _ _).symm
    · exact (win0_7.rect_emb_val_of_index_zero t 0 rfl y).symm
    · exact (win0_7.rect_emb_val_of_index_zero t 1 rfl y).symm
  · show i ∈ ((View.whole main_v0).slice (win0_7.rect t0_0)).set
    rw [View.set_slice_whole, Rect.mem_set_unit]
    intro a
    have h0 : (i 0 : Nat) < 1024 := (i 0).isLt
    have h1 : (i 1 : Nat) < 128 := (i 1).isLt
    match a with
    | ⟨0, _⟩ => exact ⟨Nat.zero_le _, h0⟩
    | ⟨1, _⟩ => exact ⟨Nat.zero_le _, h1⟩

theorem run : θ_run (defs (F := F)) (onTc (τ := τ) (main (F := F))) ⟨m, fun _ => 0, ρ⟩ fun r => ∀ c : Dev nD,
      r.2.mem ((c.tc : Thread nD τ).loc main_v0) = kout (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c 7).trans (final_out m c),
      (h c 0).trans (((dats m 0 c).arrAt_in 0 rfl _).trans (A_eq m c 0)),
      (h c 3).trans (((dats m 0 c).arrAt_in 3 rfl _).trans (A_eq m c 3)),
      (h c 1).trans (((dats m 0 c).arrAt_in 1 rfl _).trans (A_eq m c 1)),
      (h c 2).trans (((dats m 0 c).arrAt_in 2 rfl _).trans (A_eq m c 2))⟩) (run_main m ρ)

end Cert.KernelIdeal.Hand

end
-- ==== Proof.Spec.lean ====
/-
  The graph-attention layer over the extended reals, stated once for both programs.
-/
import Idealize.ShloMosaic.PureOps.Ideal

noncomputable section

namespace Cert.Gat

open Idealize.ShloMosaic

def slope : EReal := Ideal.ofBits .f32 0x3E4CCCCD#32
def eps : EReal := Ideal.ofBits .f32 0x3089705F#32

def hid (x : Fin 1024 → Fin 128 → EReal) (w : Fin 128 → Fin 128 → EReal) (i : Fin 1024) (k : Fin 128) : EReal :=
  ∑ l : Fin 128, x i l * w l k

def s1 (h : Fin 1024 → Fin 128 → EReal) (a1 : Fin 128 → EReal) (i : Fin 1024) : EReal :=
  ∑ k : Fin 128, h i k * a1 k

def s2 (h : Fin 1024 → Fin 128 → EReal) (a2 : Fin 128 → EReal) (j : Fin 1024) : EReal :=
  ∑ k : Fin 128, a2 k * h j k

def leaky (v : EReal) : EReal := if (0 : EReal) ≤ v then v else slope * v

def wgt (v : EReal) : EReal := Ideal.exp (0 - leaky v)

def elu (v : EReal) : EReal := if (0 : EReal) < v then v else Ideal.exp (min v 0) - 1

def rowOut (h : Fin 1024 → Fin 128 → EReal) (e : Fin 1024 → EReal) (k : Fin 128) : EReal :=
  elu (Ideal.div (∑ j : Fin 1024, e j * h j k) ((∑ j : Fin 1024, e j) + eps))

def att (nz : Fin 1024 → Fin 1024 → Prop) [∀ i j, Decidable (nz i j)] (u : Fin 1024 → EReal) (v : Fin 1024 → EReal)
    (i j : Fin 1024) : EReal :=
  if nz i j then wgt (u i + v j) else 0

def out (x : Fin 1024 → Fin 128 → EReal) (nz : Fin 1024 → Fin 1024 → Prop) [∀ i j, Decidable (nz i j)]
    (w : Fin 128 → Fin 128 → EReal) (a1 a2 : Fin 128 → EReal) (i : Fin 1024) (k : Fin 128) : EReal :=
  rowOut (hid x w) (att nz (s1 (hid x w) a1) (s2 (hid x w) a2) i) k

end Cert.Gat

end
-- ==== Proof.KValue.lean ====
/-
  The kernel's result is the graph-attention layer, index by index, over the extended reals.
-/
import proofs.«147569_g13718125543874_cont_sun_m_270_16_alg».proof.Proof.KOut
import proofs.«147569_g13718125543874_cont_sun_m_270_16_alg».proof.Proof.Spec
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Hand

open Idealize.ShloMosaic Idealize.ShloMosaic.ValueIdx Cert.KernelIdeal Cert.KernelIdeal.Gen

section General
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ j : Fin b, v (ix2 r j) := by
  refine (Ideal.multiReduction_add_single v _ h hφ hacc (ix1 r)).trans ?_
  refine Finset.sum_congr rfl fun j _ => congrArg v ?_
  funext ax
  match ax with
  | ⟨0, _⟩ => rfl
  | ⟨1, _⟩ => rfl

theorem matmul_plain_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    matmul D none A B (constant (F := Ideal) ⟨2, ![m, n]⟩ .f32 0x00000000#32) (ix2 a b)
      = ∑ c : Fin k, A (ix2 a c) * B (ix2 c b) := by
  subst hD
  refine (Ideal.matmul_constant_zero_apply _ none A B (ix2 a b)).trans ?_
  refine (Ideal.dotGeneral_apply (DotDims.plain m k n) none HostSchedule.single A B (ix2 a b)).symm.trans ?_
  exact StackMember.dotGeneral_plain_apply none A B a b

abbrev dotTT (k p n : ℕ) (w : DotDims.WF ⟨2, ![k, p]⟩ ⟨2, ![n, k]⟩ ⟨2, ![p, n]⟩ [0] [1] [1] [0] [] []) :
    DotDims ⟨2, ![k, p]⟩ ⟨2, ![n, k]⟩ ⟨2, ![p, n]⟩ := ⟨[0], [1], [1], [0], [], [], w⟩

theorem matmul_tt_apply {k p n : ℕ} (w : DotDims.WF ⟨2, ![k, p]⟩ ⟨2, ![n, k]⟩ ⟨2, ![p, n]⟩ [0] [1] [1] [0] [] [])
    (A : FVec Ideal ⟨2, ![k, p]⟩ .f32) (B : FVec Ideal ⟨2, ![n, k]⟩ .f32) (a : Fin p) (b : Fin n) :
    matmul (dotTT k p n w) none A B (constant (F := Ideal) ⟨2, ![p, n]⟩ .f32 0x00000000#32) (ix2 a b)
      = ∑ c : Fin k, A (ix2 c a) * B (ix2 b c) := by
  refine (Ideal.matmul_constant_zero_apply _ none A B (ix2 a b)).trans ?_
  rw [← Equiv.sum_comp (contrEquiv1 (dotTT k p n w) k rfl rfl).symm]
  refine Finset.sum_congr rfl fun c _ => ?_
  have hc := contrEquiv1_symm_val (dotTT k p n w) k rfl rfl c
  have hl : (dotTT k p n w).lhsIdx (ix2 a b) ((contrEquiv1 (dotTT k p n w) k rfl rfl).symm c) = ix2 c a := by
    funext ax; apply Fin.ext
    match ax with
    | ⟨0, _⟩ => simp [DotDims.lhsIdx]; exact hc
    | ⟨1, _⟩ => simp [DotDims.lhsIdx]; rfl
  have hr : (dotTT k p n w).rhsIdx (ix2 a b) ((contrEquiv1 (dotTT k p n w) k rfl rfl).symm c) = ix2 b c := by
    funext ax; apply Fin.ext
    match ax with
    | ⟨0, _⟩ => simp [DotDims.rhsIdx]; rfl
    | ⟨1, _⟩ => simp [DotDims.rhsIdx]; exact hc
  rw [hl, hr]

end General

theorem ofBits_one_f32 : Ideal.ofBits .f32 0x3F800000#32 = 1 := by
  simp [Ideal.ofBits, Ideal.ieee, -EReal.coe_mul]; norm_num

theorem select_decide {α : Type} (p : Prop) [i1 : Decidable p] [i2 : Decidable p] (x y : α) :
    Scalar.select (BitVec.ofBool (@decide p i1)) x y = @ite α p i2 x y := by
  by_cases h : p
  · rw [if_pos h, show @decide p i1 = true from @decide_eq_true p i1 h]; rfl
  · rw [if_neg h, show @decide p i1 = false from @decide_eq_false p i1 h]; rfl

section Pointwise
variable {s : Shape}

def lrelu (S : FVec Ideal s .f32) : FVec Ideal s .f32 :=
  select (cmpf .oge S (broadcast s (Scalar.ofBits .f32 0x00000000#32))) S
    (mulf (broadcast s (Scalar.ofBits .f32 0x3E4CCCCD#32)) S)

theorem lrelu_apply (S : FVec Ideal s .f32) (i : s.Idx) : lrelu S i = Cert.Gat.leaky (S i) := by
  show Scalar.select (Ideal.cmp .oge (S i) (Ideal.ofBits .f32 0x00000000#32)) (S i)
    (Ideal.ofBits .f32 0x3E4CCCCD#32 * S i) = _
  rw [Ideal.ofBits_zero_f32]
  exact select_decide ((0 : EReal) ≤ S i) _ _

def weights (L : FVec Ideal s .f32) (M : IVec s 32) : FVec Ideal s .f32 :=
  select (cmpi .ne M (broadcast s 0#32)) (exp (subf (broadcast s (Scalar.ofBits .f32 0x00000000#32)) L))
    (broadcast s (Scalar.ofBits .f32 0x00000000#32))

theorem weights_apply (L : FVec Ideal s .f32) (M : IVec s 32) (i : s.Idx) [inst : Decidable (M i ≠ 0#32)] :
    weights L M i = if M i ≠ 0#32 then Ideal.exp (0 - L i) else 0 := by
  show Scalar.select (IntOp.cmpi .ne (M i) 0#32) (Ideal.exp (Ideal.ofBits .f32 0x00000000#32 - L i))
    (Ideal.ofBits .f32 0x00000000#32) = _
  rw [Ideal.ofBits_zero_f32]
  by_cases h : M i = 0#32
  · rw [if_neg (not_not.mpr h), h]; rfl
  · rw [if_pos h]
    have hb : (M i != 0#32) = true := bne_iff_ne.mpr h
    show Scalar.select (BitVec.ofBool (M i != 0#32)) _ _ = _
    rw [hb]; rfl

def eluV (v : FVec Ideal s .f32) : FVec Ideal s .f32 :=
  select (cmpf .ogt v (broadcast s (Scalar.ofBits .f32 0x00000000#32))) v
    (subf (exp (minimumf v (broadcast s (Scalar.ofBits .f32 0x00000000#32)))) (broadcast s (Scalar.ofBits .f32 0x3F800000#32)))

theorem eluV_apply (v : FVec Ideal s .f32) (i : s.Idx) : eluV v i = Cert.Gat.elu (v i) := by
  show Scalar.select (Ideal.cmp .ogt (v i) (Ideal.ofBits .f32 0x00000000#32)) (v i)
    (Ideal.exp (min (v i) (Ideal.ofBits .f32 0x00000000#32)) - Ideal.ofBits .f32 0x3F800000#32) = _
  rw [Ideal.ofBits_zero_f32, ofBits_one_f32]
  exact select_decide ((0 : EReal) < v i) _ _

end Pointwise

def sumCol (E : FVec Ideal S256x1024 .f32) : FVec Ideal S256x1 .f32 :=
  shapeCast S256x1 (multiReduction .add [1] S256 E 0x00000000#32 reduces_S256x1024_S256 (.inl rfl) rfl) shapeCasts_S256_S256x1

theorem sumCol_apply (E : FVec Ideal S256x1024 .f32) (r : Fin 256) :
    sumCol E (ix2 r (0 : Fin 1)) = ∑ j : Fin 1024, E (ix2 r j) :=
  (shapeCast_a_a1_apply _ shapeCasts_S256_S256x1 r 0).trans (rowSum_apply E reduces_S256x1024_S256 (.inl rfl) rfl r)

def mean (v2 : FVec Ideal S1024x128 .f32) (E : FVec Ideal S256x1024 .f32) : FVec Ideal S256x128 .f32 :=
  divf (matmul dot_S256x1024_S1024x128_S256x128_1_0_0_1_n_n none E v2 (constant S256x128 .f32 0x00000000#32))
    (broadcastTo S256x128 (addf (sumCol E) (broadcast S256x1 (Scalar.ofBits .f32 0x3089705F#32))) broadcasts_S256x1_S256x128)

theorem mean_apply (v2 : FVec Ideal S1024x128 .f32) (E : FVec Ideal S256x1024 .f32) (r : Fin 256) (k : Fin 128) :
    mean v2 E (ix2 r k)
      = Ideal.div (∑ j : Fin 1024, E (ix2 r j) * v2 (ix2 j k)) ((∑ j : Fin 1024, E (ix2 r j)) + Cert.Gat.eps) := by
  have h1 := matmul_plain_apply dot_S256x1024_S1024x128_S256x128_1_0_0_1_n_n rfl E v2 r k
  have h2 : broadcastTo S256x128 (addf (sumCol E) (broadcast S256x1 (Scalar.ofBits .f32 0x3089705F#32)))
      broadcasts_S256x1_S256x128 (ix2 r k) = (∑ j : Fin 1024, E (ix2 r j)) + Cert.Gat.eps :=
    (broadcastTo_a1_ab_apply _ broadcasts_S256x1_S256x128 r k).trans (congrArg (· + Cert.Gat.eps) (sumCol_apply E r))
  exact congrArg₂ Ideal.div h1 h2

def tail (v2 : FVec Ideal S1024x128 .f32) (E : FVec Ideal S256x1024 .f32) : FVec Ideal S256x128 .f32 := eluV (mean v2 E)

theorem tail_apply (v2 : FVec Ideal S1024x128 .f32) (E : FVec Ideal S256x1024 .f32) (r : Fin 256) (k : Fin 128) :
    tail v2 E (ix2 r k) = Cert.Gat.rowOut (fun j k => v2 (ix2 j k)) (fun j => E (ix2 r j)) k := by
  unfold tail Cert.Gat.rowOut
  rw [eluV_apply, mean_apply]

def logit (o : ℕ) (hs : S1024x1.Slices ![o, 0] S256x1) (v5 : FVec Ideal S1024x1 .f32) (v6 : FVec Ideal S1x1024 .f32) :
    FVec Ideal S256x1024 .f32 :=
  addf (broadcastTo S256x1024 (extractStridedSlice S256x1 ![o, 0] v5 hs) broadcasts_S256x1_S256x1024)
    (broadcastTo S256x1024 v6 broadcasts_S1x1024_S256x1024)

theorem logit_apply (o : ℕ) (hs : S1024x1.Slices ![o, 0] S256x1) (v5 : FVec Ideal S1024x1 .f32) (v6 : FVec Ideal S1x1024 .f32)
    (r : Fin 256) (j : Fin 1024) (i : Fin 1024) (hi : i.val = o + r.val) :
    logit o hs v5 v6 (ix2 r j) = v5 (ix2 i (0 : Fin 1)) + v6 (ix2 (0 : Fin 1) j) := by
  have h1 : broadcastTo S256x1024 (extractStridedSlice S256x1 ![o, 0] v5 hs) broadcasts_S256x1_S256x1024 (ix2 r j)
      = v5 (ix2 i (0 : Fin 1)) :=
    (broadcastTo_a1_ab_apply _ broadcasts_S256x1_S256x1024 r j).trans (slice2_axis0_apply o v5 hs r (0 : Fin 1) i hi)
  have h2 := broadcastTo_1b_ab_apply v6 broadcasts_S1x1024_S256x1024 r j
  exact congrArg₂ (· + ·) h1 h2

def block (o : ℕ) (hs : S1024x1.Slices ![o, 0] S256x1) (v2 : FVec Ideal S1024x128 .f32) (v5 : FVec Ideal S1024x1 .f32)
    (v6 : FVec Ideal S1x1024 .f32) (M : Vec Ideal S256x1024 .i32) : FVec Ideal S256x128 .f32 :=
  tail v2 (weights (lrelu (logit o hs v5 v6)) M)

variable (X : Vec Ideal S1024x128 .f32) (ADJ : Vec Ideal S1024x1024 .i32) (W : Vec Ideal S128x128 .f32) (A : Vec Ideal S256x1 .f32)

theorem piece0_eq : piece (F := Ideal) 0 X ADJ W A
    = block 0 slices_S1024x1_o0_0_S256x1 (k0_pay2 X W) (k0_pay3 X W (aLo A)) (k0_pay4 X W (aHi A)) (adjRows 0 ADJ) := rfl

theorem piece1_eq : piece (F := Ideal) 1 X ADJ W A
    = block 256 slices_S1024x1_o256_0_S256x1 (k0_pay2 X W) (k0_pay3 X W (aLo A)) (k0_pay4 X W (aHi A)) (adjRows 1 ADJ) := rfl

theorem piece2_eq : piece (F := Ideal) 2 X ADJ W A
    = block 512 slices_S1024x1_o512_0_S256x1 (k0_pay2 X W) (k0_pay3 X W (aLo A)) (k0_pay4 X W (aHi A)) (adjRows 2 ADJ) := rfl

theorem piece3_eq : piece (F := Ideal) 3 X ADJ W A
    = block 768 slices_S1024x1_o768_0_S256x1 (k0_pay2 X W) (k0_pay3 X W (aLo A)) (k0_pay4 X W (aHi A)) (adjRows 3 ADJ) := rfl

abbrev spec : Fin 1024 → Fin 128 → EReal :=
  Cert.Gat.out (fun i l => X (ix2 i l)) (fun i j => ADJ (ix2 i j) ≠ 0#32) (fun l k => W (ix2 l k))
    (fun k => A (ix2 (⟨k.val, by omega⟩ : Fin 256) (0 : Fin 1)))
    (fun k => A (ix2 (⟨128 + k.val, by omega⟩ : Fin 256) (0 : Fin 1)))

theorem pay2_apply (i : Fin 1024) (k : Fin 128) :
    k0_pay2 (F := Ideal) X W (ix2 i k) = Cert.Gat.hid (fun i l => X (ix2 i l)) (fun l k => W (ix2 l k)) i k :=
  matmul_plain_apply dot_S1024x128_S128x128_S1024x128_1_0_0_1_n_n rfl X W i k

theorem pay3_apply (i : Fin 1024) :
    k0_pay3 (F := Ideal) X W (aLo A) (ix2 i (0 : Fin 1))
      = Cert.Gat.s1 (Cert.Gat.hid (fun i l => X (ix2 i l)) (fun l k => W (ix2 l k)))
          (fun k => A (ix2 (⟨k.val, by omega⟩ : Fin 256) (0 : Fin 1))) i := by
  refine (matmul_plain_apply dot_S1024x128_S128x1_S1024x1_1_0_0_1_n_n rfl (k0_pay2 X W) (aLo A) i 0).trans ?_
  unfold Cert.Gat.s1
  refine Finset.sum_congr rfl fun k _ => ?_
  rw [pay2_apply]
  rfl

theorem pay4_apply (j : Fin 1024) :
    k0_pay4 (F := Ideal) X W (aHi A) (ix2 (0 : Fin 1) j)
      = Cert.Gat.s2 (Cert.Gat.hid (fun i l => X (ix2 i l)) (fun l k => W (ix2 l k)))
          (fun k => A (ix2 (⟨128 + k.val, by omega⟩ : Fin 256) (0 : Fin 1))) j := by
  refine (matmul_tt_apply dot_S128x1_S1024x128_S1x1024_0_1_1_0_n_n_wf (aHi A) (k0_pay2 X W) 0 j).trans ?_
  unfold Cert.Gat.s2
  refine Finset.sum_congr rfl fun k _ => ?_
  rw [pay2_apply]
  rfl

theorem block_apply (q : Fin 4) (o : ℕ) (ho : o = q.val * 256) (hs : S1024x1.Slices ![o, 0] S256x1) (r : Fin 256) (k : Fin 128) :
    block o hs (k0_pay2 (F := Ideal) X W) (k0_pay3 X W (aLo A)) (k0_pay4 X W (aHi A)) (adjRows q ADJ) (ix2 r k)
      = spec X ADJ W A (⟨q.val * 256 + r.val, by omega⟩ : Fin 1024) k := by
  have hH : (fun j k => k0_pay2 (F := Ideal) X W (ix2 j k))
      = Cert.Gat.hid (fun i l => X (ix2 i l)) (fun l k => W (ix2 l k)) :=
    funext fun j => funext fun k => pay2_apply X W j k
  unfold block
  rw [tail_apply, hH]
  unfold spec Cert.Gat.out
  refine congrArg (fun e => Cert.Gat.rowOut _ e k) (funext fun j => ?_)
  rw [weights_apply, lrelu_apply,
    logit_apply o hs _ _ r j (⟨q.val * 256 + r.val, by omega⟩ : Fin 1024) (by show q.val * 256 + r.val = o + r.val; omega), pay3_apply, pay4_apply]
  rfl

theorem piece_apply (q : Fin 4) (r : Fin 256) (k : Fin 128) :
    piece (F := Ideal) q X ADJ W A (ix2 r k) = spec X ADJ W A (⟨q.val * 256 + r.val, by omega⟩ : Fin 1024) k := by
  match q with
  | ⟨0, _⟩ => exact (congrFun (piece0_eq X ADJ W A) _).trans (block_apply X ADJ W A 0 0 rfl _ r k)
  | ⟨1, _⟩ => exact (congrFun (piece1_eq X ADJ W A) _).trans (block_apply X ADJ W A 1 256 rfl _ r k)
  | ⟨2, _⟩ => exact (congrFun (piece2_eq X ADJ W A) _).trans (block_apply X ADJ W A 2 512 rfl _ r k)
  | ⟨3, _⟩ => exact (congrFun (piece3_eq X ADJ W A) _).trans (block_apply X ADJ W A 3 768 rfl _ r k)

-- At every index the kernel's function of the four arguments is the layer of the specification.
theorem kout_eq_spec (i : Fin 1024) (k : Fin 128) :
    kout (F := Ideal) X ADJ W A (ix2 i k)
      = Cert.Gat.out (fun i l => X (ix2 i l)) (fun i j => ADJ (ix2 i j) ≠ 0#32) (fun l k => W (ix2 l k))
          (fun k => A (ix2 (⟨k.val, by omega⟩ : Fin 256) (0 : Fin 1)))
          (fun k => A (ix2 (⟨128 + k.val, by omega⟩ : Fin 256) (0 : Fin 1))) i k := by
  refine (piece_apply X ADJ W A (⟨i.val / 256, by omega⟩ : Fin 4) (⟨i.val % 256, by omega⟩ : Fin 256) k).trans ?_
  exact congrArg (fun t => spec X ADJ W A t k) (Fin.ext (by show i.val / 256 * 256 + i.val % 256 = i.val; omega))

end Cert.KernelIdeal.Hand

end
-- ==== Proof.RefOpsPlain.lean ====
/- The same 222 host operations as RefOps.lean, every one spelt with the plain builder at the bare references and its function ascribed
   its type (no typed references): chunks ops0 … ops5 and opsAll, in the namespace Cert.ReferenceIdeal.OpsPlain.
   A table laid out from the printed program; it makes no argument. -/
import proofs.«147569_g13718125543874_cont_sun_m_270_16_alg».proof.Proof.Gen.ReferenceIdeal
import Idealize.ShloMosaic.Lib.StableHlo.Run

noncomputable section

namespace Cert.ReferenceIdeal.OpsPlain

open Cert.ReferenceIdeal Cert.ReferenceIdeal.Gen Idealize.ShloMosaic Idealize.ShloMosaic.TcCoe Idealize.SL.Sem Idealize.ShloMosaic.StableHlo

variable {F : FTy → Type} [FloatOps F]

/-- operations 0 … 36 -/
abbrev ops0 : List (HloOp τ sig (Elt F)) :=
  [ nullary main_c (constantI S_ 32 0#32 : (⟨S_, .i32⟩ : BufTy).Contents (Elt F)),
    unary main_c main_v0 (broadcastInDim S1024x1024 ![] bcast_S_S1024x1024 : (⟨S_, .i32⟩ : BufTy).Contents (Elt F) → (⟨S1024x1024, .i32⟩ : BufTy).Contents (Elt F)),
    binary main_arg1 main_v0 main_v1 (cmpi .ne : (⟨S1024x1024, .i32⟩ : BufTy).Contents (Elt F) → (⟨S1024x1024, .i32⟩ : BufTy).Contents (Elt F) → (⟨S1024x1024, .i1⟩ : BufTy).Contents (Elt F)),
    reshape main_v1 main_call0_v0 rfl shapeCasts_S1024x1024_S1048576,
    unary main_call0_v0 main_call0_v1 ((extui 32 · natLt_1_32) : (⟨S1048576, .i1⟩ : BufTy).Contents (Elt F) → (⟨S1048576, .i32⟩ : BufTy).Contents (Elt F)),
    nullary main_call0_call0_c (constantI S_ 32 0#32 : (⟨S_, .i32⟩ : BufTy).Contents (Elt F)),
    unary main_call0_call0_c main_call0_call0_v0 ((broadcastInDim S_ ![] bcast_S_S_) : (⟨S_, .i32⟩ : BufTy).Contents (Elt F) → (⟨S_, .i32⟩ : BufTy).Contents (Elt F)),
    binary main_call0_v1 main_call0_call0_v0 main_v2 ((fun x v => Host.reduceWindow IntOp.addi ![1048576] ![1] ![1048575] ![0] x v reduceWindows_S1048576_S1048576_w1048576s1p1048575_0 h_S_) : (⟨S1048576, .i32⟩ : BufTy).Contents (Elt F) → (⟨S_, .i32⟩ : BufTy).Contents (Elt F) → (⟨S1048576, .i32⟩ : BufTy).Contents (Elt F)),
    nullary main_c_0 (constantI S_ 32 0#32 : (⟨S_, .i32⟩ : BufTy).Contents (Elt F)),
    unary main_c_0 main_v3 (broadcastInDim S1048576 ![] bcast_S_S1048576 : (⟨S_, .i32⟩ : BufTy).Contents (Elt F) → (⟨S1048576, .i32⟩ : BufTy).Contents (Elt F)),
    nullary main_c_1 (constantI S_ 32 0#32 : (⟨S_, .i32⟩ : BufTy).Contents (Elt F)),
    unary main_c_1 main_call1_v0 (id : (⟨S_, .i32⟩ : BufTy).Contents (Elt F) → (⟨S_, .i32⟩ : BufTy).Contents (Elt F)),
    unary main_call1_v0 main_call1_v1 ((broadcastInDim S1048576 ![] bcast_S_S1048576) : (⟨S_, .i32⟩ : BufTy).Contents (Elt F) → (⟨S1048576, .i32⟩ : BufTy).Contents (Elt F)),
    binary main_call1_v1 main_v2 main_v4 (maxsi : (⟨S1048576, .i32⟩ : BufTy).Contents (Elt F) → (⟨S1048576, .i32⟩ : BufTy).Contents (Elt F) → (⟨S1048576, .i32⟩ : BufTy).Contents (Elt F)),
    nullary main_c_2 (constantI S_ 32 0#32 : (⟨S_, .i32⟩ : BufTy).Contents (Elt F)),
    unary main_c_2 main_v5 (broadcastInDim S1048576 ![] bcast_S_S1048576 : (⟨S_, .i32⟩ : BufTy).Contents (Elt F) → (⟨S1048576, .i32⟩ : BufTy).Contents (Elt F)),
    binary main_v4 main_v5 main_v6 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 1048576#32 : (⟨S_, .i32⟩ : BufTy).Contents (Elt F)),
    unary main_c_3 main_v7 (broadcastInDim S1048576 ![] bcast_S_S1048576 : (⟨S_, .i32⟩ : BufTy).Contents (Elt F) → (⟨S1048576, .i32⟩ : BufTy).Contents (Elt F)),
    binary main_v4 main_v7 main_v8 (addi : (⟨S1048576, .i32⟩ : BufTy).Contents (Elt F) → (⟨S1048576, .i32⟩ : BufTy).Contents (Elt F) → (⟨S1048576, .i32⟩ : BufTy).Contents (Elt F)),
    ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v9 main_v10 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32 : (⟨S_, .i32⟩ : BufTy).Contents (Elt F)),
    unary main_c_4 main_v11 (broadcastInDim S1048576 ![] bcast_S_S1048576 : (⟨S_, .i32⟩ : BufTy).Contents (Elt F) → (⟨S1048576, .i32⟩ : BufTy).Contents (Elt F)),
    ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    nullary main_call2_call0_c (constantI S_ 32 0#32 : (⟨S_, .i32⟩ : BufTy).Contents (Elt F)),
    unary main_call2_call0_c main_call2_call0_v0 ((broadcastInDim S_ ![] bcast_S_S_) : (⟨S_, .i32⟩ : BufTy).Contents (Elt F) → (⟨S_, .i32⟩ : BufTy).Contents (Elt F)),
    binary main_v12 main_call2_call0_v0 main_v13 ((fun x v => Host.reduceWindow IntOp.addi ![1048576] ![1] ![1048575] ![0] x v reduceWindows_S1048576_S1048576_w1048576s1p1048575_0 h_S_) : (⟨S1048576, .i32⟩ : BufTy).Contents (Elt F) → (⟨S_, .i32⟩ : BufTy).Contents (Elt F) → (⟨S1048576, .i32⟩ : BufTy).Contents (Elt F)),
    nullary main_c_5 (constantI S_ 32 1024#32 : (⟨S_, .i32⟩ : BufTy).Contents (Elt F)),
    unary main_c_5 main_call3_v0 ((broadcastInDim S1048576 ![] bcast_S_S1048576) : (⟨S_, .i32⟩ : BufTy).Contents (Elt F) → (⟨S1048576, .i32⟩ : BufTy).Contents (Elt F)),
    binary main_v13 main_call3_v0 main_call3_v1 (Host.divsi : (⟨S1048576, .i32⟩ : BufTy).Contents (Elt F) → (⟨S1048576, .i32⟩ : BufTy).Contents (Elt F) → (⟨S1048576, .i32⟩ : BufTy).Contents (Elt F)),
    unary main_v13 main_call3_v2 (signi : (⟨S1048576, .i32⟩ : BufTy).Contents (Elt F) → (⟨S1048576, .i32⟩ : BufTy).Contents (Elt F)),
    unary main_c_5 main_call3_v3 (signi : (⟨S_, .i32⟩ : BufTy).Contents (Elt F) → (⟨S_, .i32⟩ : BufTy).Contents (Elt F)),
    unary main_call3_v3 main_call3_v4 ((broadcastInDim S1048576 ![] bcast_S_S1048576) : (⟨S_, .i32⟩ : BufTy).Contents (Elt F) → (⟨S1048576, .i32⟩ : BufTy).Contents (Elt F)),
    binary main_call3_v2 main_call3_v4 main_call3_v5 ((cmpi .ne) : (⟨S1048576, .i32⟩ : BufTy).Contents (Elt F) → (⟨S1048576, .i32⟩ : BufTy).Contents (Elt F) → (⟨S1048576, .i1⟩ : BufTy).Contents (Elt F)),
    unary main_c_5 main_call3_v6 ((broadcastInDim S1048576 ![] bcast_S_S1048576) : (⟨S_, .i32⟩ : BufTy).Contents (Elt F) → (⟨S1048576, .i32⟩ : BufTy).Contents (Elt F)),
    binary main_v13 main_call3_v6 main_call3_v7 (Host.remsi : (⟨S1048576, .i32⟩ : BufTy).Contents (Elt F) → (⟨S1048576, .i32⟩ : BufTy).Contents (Elt F) → (⟨S1048576, .i32⟩ : BufTy).Contents (Elt F)) ]

/-- operations 37 … 73 -/
abbrev ops1 : List (HloOp τ sig (Elt F)) :=
  [ nullary main_call3_c (constantI S_ 32 0#32 : (⟨S_, .i32⟩ : BufTy).Contents (Elt F)),
    unary main_call3_c main_call3_v8 ((broadcastInDim S1048576 ![] bcast_S_S1048576) : (⟨S_, .i32⟩ : BufTy).Contents (Elt F) → (⟨S1048576, .i32⟩ : BufTy).Contents (Elt F)),
    binary main_call3_v7 main_call3_v8 main_call3_v9 ((cmpi .ne) : (⟨S1048576, .i32⟩ : BufTy).Contents (Elt F) → (⟨S1048576, .i32⟩ : BufTy).Contents (Elt F) → (⟨S1048576, .i1⟩ : BufTy).Contents (Elt F)),
    binary main_call3_v5 main_call3_v9 main_call3_v10 (andi : (⟨S1048576, .i1⟩ : BufTy).Contents (Elt F) → (⟨S1048576, .i1⟩ : BufTy).Contents (Elt F) → (⟨S1048576, .i1⟩ : BufTy).Contents (Elt F)),
    nullary main_call3_c_0 (constantI S_ 32 1#32 : (⟨S_, .i32⟩ : BufTy).Contents (Elt F)),
    unary main_call3_c_0 main_call3_v11 ((broadcastInDim S1048576 ![] bcast_S_S1048576) : (⟨S_, .i32⟩ : BufTy).Contents (Elt F) → (⟨S1048576, .i32⟩ : BufTy).Contents (Elt F)),
    binary main_call3_v1 main_call3_v11 main_call3_v12 (subi : (⟨S1048576, .i32⟩ : BufTy).Contents (Elt F) → (⟨S1048576, .i32⟩ : BufTy).Contents (Elt F) → (⟨S1048576, .i32⟩ : BufTy).Contents (Elt F)),
    ternary main_call3_v10 main_call3_v12 main_call3_v1 main_v14 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_6 (constantI S_ 32 1024#32 : (⟨S_, .i32⟩ : BufTy).Contents (Elt F)),
    unary main_c_6 main_call4_v0 (id : (⟨S_, .i32⟩ : BufTy).Contents (Elt F) → (⟨S_, .i32⟩ : BufTy).Contents (Elt F)),
    nullary main_call4_c (constantI S_ 32 0#32 : (⟨S_, .i32⟩ : BufTy).Contents (Elt F)),
    binary main_call4_v0 main_call4_c main_call4_v1 ((cmpi .eq) : (⟨S_, .i32⟩ : BufTy).Contents (Elt F) → (⟨S_, .i32⟩ : BufTy).Contents (Elt F) → (⟨S_, .i1⟩ : BufTy).Contents (Elt F)),
    nullary main_call4_c_0 (constantI S_ 32 1#32 : (⟨S_, .i32⟩ : BufTy).Contents (Elt F)),
    ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call4_v2 main_call4_v3 ((broadcastInDim S1048576 ![] bcast_S_S1048576) : (⟨S_, .i32⟩ : BufTy).Contents (Elt F) → (⟨S1048576, .i32⟩ : BufTy).Contents (Elt F)),
    binary main_v14 main_call4_v3 main_call4_v4 (Host.remsi : (⟨S1048576, .i32⟩ : BufTy).Contents (Elt F) → (⟨S1048576, .i32⟩ : BufTy).Contents (Elt F) → (⟨S1048576, .i32⟩ : BufTy).Contents (Elt F)),
    nullary main_call4_c_1 (constantI S_ 32 0#32 : (⟨S_, .i32⟩ : BufTy).Contents (Elt F)),
    unary main_call4_c_1 main_call4_v5 ((broadcastInDim S1048576 ![] bcast_S_S1048576) : (⟨S_, .i32⟩ : BufTy).Contents (Elt F) → (⟨S1048576, .i32⟩ : BufTy).Contents (Elt F)),
    binary main_call4_v4 main_call4_v5 main_call4_v6 ((cmpi .ne) : (⟨S1048576, .i32⟩ : BufTy).Contents (Elt F) → (⟨S1048576, .i32⟩ : BufTy).Contents (Elt F) → (⟨S1048576, .i1⟩ : BufTy).Contents (Elt F)),
    nullary main_call4_c_2 (constantI S_ 32 0#32 : (⟨S_, .i32⟩ : BufTy).Contents (Elt F)),
    unary main_call4_c_2 main_call4_v7 ((broadcastInDim S1048576 ![] bcast_S_S1048576) : (⟨S_, .i32⟩ : BufTy).Contents (Elt F) → (⟨S1048576, .i32⟩ : BufTy).Contents (Elt F)),
    binary main_call4_v4 main_call4_v7 main_call4_v8 ((cmpi .slt) : (⟨S1048576, .i32⟩ : BufTy).Contents (Elt F) → (⟨S1048576, .i32⟩ : BufTy).Contents (Elt F) → (⟨S1048576, .i1⟩ : BufTy).Contents (Elt F)),
    nullary main_call4_c_3 (constantI S_ 32 0#32 : (⟨S_, .i32⟩ : BufTy).Contents (Elt F)),
    binary main_call4_v2 main_call4_c_3 main_call4_v9 ((cmpi .slt) : (⟨S_, .i32⟩ : BufTy).Contents (Elt F) → (⟨S_, .i32⟩ : BufTy).Contents (Elt F) → (⟨S_, .i1⟩ : BufTy).Contents (Elt F)),
    unary main_call4_v9 main_call4_v10 ((broadcastInDim S1048576 ![] bcast_S_S1048576) : (⟨S_, .i1⟩ : BufTy).Contents (Elt F) → (⟨S1048576, .i1⟩ : BufTy).Contents (Elt F)),
    binary main_call4_v8 main_call4_v10 main_call4_v11 ((cmpi .ne) : (⟨S1048576, .i1⟩ : BufTy).Contents (Elt F) → (⟨S1048576, .i1⟩ : BufTy).Contents (Elt F) → (⟨S1048576, .i1⟩ : BufTy).Contents (Elt F)),
    binary main_call4_v11 main_call4_v6 main_call4_v12 (andi : (⟨S1048576, .i1⟩ : BufTy).Contents (Elt F) → (⟨S1048576, .i1⟩ : BufTy).Contents (Elt F) → (⟨S1048576, .i1⟩ : BufTy).Contents (Elt F)),
    unary main_call4_v2 main_call4_v13 ((broadcastInDim S1048576 ![] bcast_S_S1048576) : (⟨S_, .i32⟩ : BufTy).Contents (Elt F) → (⟨S1048576, .i32⟩ : BufTy).Contents (Elt F)),
    binary main_call4_v4 main_call4_v13 main_call4_v14 (addi : (⟨S1048576, .i32⟩ : BufTy).Contents (Elt F) → (⟨S1048576, .i32⟩ : BufTy).Contents (Elt F) → (⟨S1048576, .i32⟩ : BufTy).Contents (Elt F)),
    ternary main_call4_v12 main_call4_v14 main_call4_v4 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_7 (constantI S_ 32 1#32 : (⟨S_, .i32⟩ : BufTy).Contents (Elt F)),
    unary main_c_7 main_call5_v0 ((broadcastInDim S1048576 ![] bcast_S_S1048576) : (⟨S_, .i32⟩ : BufTy).Contents (Elt F) → (⟨S1048576, .i32⟩ : BufTy).Contents (Elt F)),
    binary main_v13 main_call5_v0 main_call5_v1 (Host.divsi : (⟨S1048576, .i32⟩ : BufTy).Contents (Elt F) → (⟨S1048576, .i32⟩ : BufTy).Contents (Elt F) → (⟨S1048576, .i32⟩ : BufTy).Contents (Elt F)),
    unary main_v13 main_call5_v2 (signi : (⟨S1048576, .i32⟩ : BufTy).Contents (Elt F) → (⟨S1048576, .i32⟩ : BufTy).Contents (Elt F)),
    unary main_c_7 main_call5_v3 (signi : (⟨S_, .i32⟩ : BufTy).Contents (Elt F) → (⟨S_, .i32⟩ : BufTy).Contents (Elt F)),
    unary main_call5_v3 main_call5_v4 ((broadcastInDim S1048576 ![] bcast_S_S1048576) : (⟨S_, .i32⟩ : BufTy).Contents (Elt F) → (⟨S1048576, .i32⟩ : BufTy).Contents (Elt F)),
    binary main_call5_v2 main_call5_v4 main_call5_v5 ((cmpi .ne) : (⟨S1048576, .i32⟩ : BufTy).Contents (Elt F) → (⟨S1048576, .i32⟩ : BufTy).Contents (Elt F) → (⟨S1048576, .i1⟩ : BufTy).Contents (Elt F)) ]

/-- operations 74 … 110 -/
abbrev ops2 : List (HloOp τ sig (Elt F)) :=
  [ unary main_c_7 main_call5_v6 ((broadcastInDim S1048576 ![] bcast_S_S1048576) : (⟨S_, .i32⟩ : BufTy).Contents (Elt F) → (⟨S1048576, .i32⟩ : BufTy).Contents (Elt F)),
    binary main_v13 main_call5_v6 main_call5_v7 (Host.remsi : (⟨S1048576, .i32⟩ : BufTy).Contents (Elt F) → (⟨S1048576, .i32⟩ : BufTy).Contents (Elt F) → (⟨S1048576, .i32⟩ : BufTy).Contents (Elt F)),
    nullary main_call5_c (constantI S_ 32 0#32 : (⟨S_, .i32⟩ : BufTy).Contents (Elt F)),
    unary main_call5_c main_call5_v8 ((broadcastInDim S1048576 ![] bcast_S_S1048576) : (⟨S_, .i32⟩ : BufTy).Contents (Elt F) → (⟨S1048576, .i32⟩ : BufTy).Contents (Elt F)),
    binary main_call5_v7 main_call5_v8 main_call5_v9 ((cmpi .ne) : (⟨S1048576, .i32⟩ : BufTy).Contents (Elt F) → (⟨S1048576, .i32⟩ : BufTy).Contents (Elt F) → (⟨S1048576, .i1⟩ : BufTy).Contents (Elt F)),
    binary main_call5_v5 main_call5_v9 main_call5_v10 (andi : (⟨S1048576, .i1⟩ : BufTy).Contents (Elt F) → (⟨S1048576, .i1⟩ : BufTy).Contents (Elt F) → (⟨S1048576, .i1⟩ : BufTy).Contents (Elt F)),
    nullary main_call5_c_0 (constantI S_ 32 1#32 : (⟨S_, .i32⟩ : BufTy).Contents (Elt F)),
    unary main_call5_c_0 main_call5_v11 ((broadcastInDim S1048576 ![] bcast_S_S1048576) : (⟨S_, .i32⟩ : BufTy).Contents (Elt F) → (⟨S1048576, .i32⟩ : BufTy).Contents (Elt F)),
    binary main_call5_v1 main_call5_v11 main_call5_v12 (subi : (⟨S1048576, .i32⟩ : BufTy).Contents (Elt F) → (⟨S1048576, .i32⟩ : BufTy).Contents (Elt F) → (⟨S1048576, .i32⟩ : BufTy).Contents (Elt F)),
    ternary main_call5_v10 main_call5_v12 main_call5_v1 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_8 (constantI S_ 32 1024#32 : (⟨S_, .i32⟩ : BufTy).Contents (Elt F)),
    unary main_c_8 main_call6_v0 (id : (⟨S_, .i32⟩ : BufTy).Contents (Elt F) → (⟨S_, .i32⟩ : BufTy).Contents (Elt F)),
    nullary main_call6_c (constantI S_ 32 0#32 : (⟨S_, .i32⟩ : BufTy).Contents (Elt F)),
    binary main_call6_v0 main_call6_c main_call6_v1 ((cmpi .eq) : (⟨S_, .i32⟩ : BufTy).Contents (Elt F) → (⟨S_, .i32⟩ : BufTy).Contents (Elt F) → (⟨S_, .i1⟩ : BufTy).Contents (Elt F)),
    nullary main_call6_c_0 (constantI S_ 32 1#32 : (⟨S_, .i32⟩ : BufTy).Contents (Elt F)),
    ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call6_v2 main_call6_v3 ((broadcastInDim S1048576 ![] bcast_S_S1048576) : (⟨S_, .i32⟩ : BufTy).Contents (Elt F) → (⟨S1048576, .i32⟩ : BufTy).Contents (Elt F)),
    binary main_v16 main_call6_v3 main_call6_v4 (Host.remsi : (⟨S1048576, .i32⟩ : BufTy).Contents (Elt F) → (⟨S1048576, .i32⟩ : BufTy).Contents (Elt F) → (⟨S1048576, .i32⟩ : BufTy).Contents (Elt F)),
    nullary main_call6_c_1 (constantI S_ 32 0#32 : (⟨S_, .i32⟩ : BufTy).Contents (Elt F)),
    unary main_call6_c_1 main_call6_v5 ((broadcastInDim S1048576 ![] bcast_S_S1048576) : (⟨S_, .i32⟩ : BufTy).Contents (Elt F) → (⟨S1048576, .i32⟩ : BufTy).Contents (Elt F)),
    binary main_call6_v4 main_call6_v5 main_call6_v6 ((cmpi .ne) : (⟨S1048576, .i32⟩ : BufTy).Contents (Elt F) → (⟨S1048576, .i32⟩ : BufTy).Contents (Elt F) → (⟨S1048576, .i1⟩ : BufTy).Contents (Elt F)),
    nullary main_call6_c_2 (constantI S_ 32 0#32 : (⟨S_, .i32⟩ : BufTy).Contents (Elt F)),
    unary main_call6_c_2 main_call6_v7 ((broadcastInDim S1048576 ![] bcast_S_S1048576) : (⟨S_, .i32⟩ : BufTy).Contents (Elt F) → (⟨S1048576, .i32⟩ : BufTy).Contents (Elt F)),
    binary main_call6_v4 main_call6_v7 main_call6_v8 ((cmpi .slt) : (⟨S1048576, .i32⟩ : BufTy).Contents (Elt F) → (⟨S1048576, .i32⟩ : BufTy).Contents (Elt F) → (⟨S1048576, .i1⟩ : BufTy).Contents (Elt F)),
    nullary main_call6_c_3 (constantI S_ 32 0#32 : (⟨S_, .i32⟩ : BufTy).Contents (Elt F)),
    binary main_call6_v2 main_call6_c_3 main_call6_v9 ((cmpi .slt) : (⟨S_, .i32⟩ : BufTy).Contents (Elt F) → (⟨S_, .i32⟩ : BufTy).Contents (Elt F) → (⟨S_, .i1⟩ : BufTy).Contents (Elt F)),
    unary main_call6_v9 main_call6_v10 ((broadcastInDim S1048576 ![] bcast_S_S1048576) : (⟨S_, .i1⟩ : BufTy).Contents (Elt F) → (⟨S1048576, .i1⟩ : BufTy).Contents (Elt F)),
    binary main_call6_v8 main_call6_v10 main_call6_v11 ((cmpi .ne) : (⟨S1048576, .i1⟩ : BufTy).Contents (Elt F) → (⟨S1048576, .i1⟩ : BufTy).Contents (Elt F) → (⟨S1048576, .i1⟩ : BufTy).Contents (Elt F)),
    binary main_call6_v11 main_call6_v6 main_call6_v12 (andi : (⟨S1048576, .i1⟩ : BufTy).Contents (Elt F) → (⟨S1048576, .i1⟩ : BufTy).Contents (Elt F) → (⟨S1048576, .i1⟩ : BufTy).Contents (Elt F)),
    unary main_call6_v2 main_call6_v13 ((broadcastInDim S1048576 ![] bcast_S_S1048576) : (⟨S_, .i32⟩ : BufTy).Contents (Elt F) → (⟨S1048576, .i32⟩ : BufTy).Contents (Elt F)),
    binary main_call6_v4 main_call6_v13 main_call6_v14 (addi : (⟨S1048576, .i32⟩ : BufTy).Contents (Elt F) → (⟨S1048576, .i32⟩ : BufTy).Contents (Elt F) → (⟨S1048576, .i32⟩ : BufTy).Contents (Elt F)),
    ternary main_call6_v12 main_call6_v14 main_call6_v4 main_v17 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_v18 (iotaInDim S1048576 32 0 : (⟨S1048576, .i32⟩ : BufTy).Contents (Elt F)),
    unary main_v1 main_v19 ((extui 32 · natLt_1_32) : (⟨S1024x1024, .i1⟩ : BufTy).Contents (Elt F) → (⟨S1024x1024, .i32⟩ : BufTy).Contents (Elt F)),
    nullary main_c_9 (constantI S_ 32 0#32 : (⟨S_, .i32⟩ : BufTy).Contents (Elt F)),
    binary main_v19 main_c_9 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    unary main_v20 main_v21 (broadcastInDim S1048576 ![] bcast_S_S1048576 : (⟨S_, .i32⟩ : BufTy).Contents (Elt F) → (⟨S1048576, .i32⟩ : BufTy).Contents (Elt F)) ]

/-- operations 111 … 147 -/
abbrev ops3 : List (HloOp τ sig (Elt F)) :=
  [ binary main_v18 main_v21 main_v22 (cmpi .sge : (⟨S1048576, .i32⟩ : BufTy).Contents (Elt F) → (⟨S1048576, .i32⟩ : BufTy).Contents (Elt F) → (⟨S1048576, .i1⟩ : BufTy).Contents (Elt F)),
    nullary main_c_10 (constantI S_ 32 1024#32 : (⟨S_, .i32⟩ : BufTy).Contents (Elt F)),
    unary main_c_10 main_call7_v0 (id : (⟨S_, .i32⟩ : BufTy).Contents (Elt F) → (⟨S_, .i32⟩ : BufTy).Contents (Elt F)),
    unary main_call7_v0 main_call7_v1 ((broadcastInDim S1048576 ![] bcast_S_S1048576) : (⟨S_, .i32⟩ : BufTy).Contents (Elt F) → (⟨S1048576, .i32⟩ : BufTy).Contents (Elt F)),
    ternary main_v22 main_call7_v1 main_v15 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_11 (constantI S_ 32 1024#32 : (⟨S_, .i32⟩ : BufTy).Contents (Elt F)),
    unary main_c_11 main_call8_v0 (id : (⟨S_, .i32⟩ : BufTy).Contents (Elt F) → (⟨S_, .i32⟩ : BufTy).Contents (Elt F)),
    unary main_call8_v0 main_call8_v1 ((broadcastInDim S1048576 ![] bcast_S_S1048576) : (⟨S_, .i32⟩ : BufTy).Contents (Elt F) → (⟨S1048576, .i32⟩ : BufTy).Contents (Elt F)),
    ternary main_v22 main_call8_v1 main_v17 main_v24 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v23 main_v25 (broadcastInDim S1x1048576 ![1] bcast_S1048576_S1x1048576_1 : (⟨S1048576, .i32⟩ : BufTy).Contents (Elt F) → (⟨S1x1048576, .i32⟩ : BufTy).Contents (Elt F)),
    unary main_v24 main_v26 (broadcastInDim S1x1048576 ![1] bcast_S1048576_S1x1048576_1 : (⟨S1048576, .i32⟩ : BufTy).Contents (Elt F) → (⟨S1x1048576, .i32⟩ : BufTy).Contents (Elt F)),
    binary main_v25 main_v26 main_v27 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    binary main_arg0 main_arg2 main_v28 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_v27 main_v29 ((extractStridedSlice S1x1048576 ![0, 0] · slices_S2x1048576_S1x1048576_0_0) : (⟨S2x1048576, .i32⟩ : BufTy).Contents (Elt F) → (⟨S1x1048576, .i32⟩ : BufTy).Contents (Elt F)),
    reshape main_v29 main_v30 rfl shapeCasts_S1x1048576_S1048576,
    nullary main_c_12 (constantI S_ 32 0#32 : (⟨S_, .i32⟩ : BufTy).Contents (Elt F)),
    unary main_c_12 main_v31 (broadcastInDim S1048576 ![] bcast_S_S1048576 : (⟨S_, .i32⟩ : BufTy).Contents (Elt F) → (⟨S1048576, .i32⟩ : BufTy).Contents (Elt F)),
    binary main_v30 main_v31 main_v32 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 1024#32 : (⟨S_, .i32⟩ : BufTy).Contents (Elt F)),
    unary main_c_13 main_v33 (broadcastInDim S1048576 ![] bcast_S_S1048576 : (⟨S_, .i32⟩ : BufTy).Contents (Elt F) → (⟨S1048576, .i32⟩ : BufTy).Contents (Elt F)),
    binary main_v30 main_v33 main_v34 (addi : (⟨S1048576, .i32⟩ : BufTy).Contents (Elt F) → (⟨S1048576, .i32⟩ : BufTy).Contents (Elt F) → (⟨S1048576, .i32⟩ : BufTy).Contents (Elt F)),
    ternary main_v32 main_v34 main_v30 main_v35 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v35 main_v36 (broadcastInDim S1048576x1 ![0] bcast_S1048576_S1048576x1_0 : (⟨S1048576, .i32⟩ : BufTy).Contents (Elt F) → (⟨S1048576x1, .i32⟩ : BufTy).Contents (Elt F)),
    binary main_v28 main_v36 main_v37 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    unary main_v27 main_v38 ((extractStridedSlice S1x1048576 ![1, 0] · slices_S2x1048576_S1x1048576_1_0) : (⟨S2x1048576, .i32⟩ : BufTy).Contents (Elt F) → (⟨S1x1048576, .i32⟩ : BufTy).Contents (Elt F)),
    reshape main_v38 main_v39 rfl shapeCasts_S1x1048576_S1048576,
    nullary main_c_14 (constantI S_ 32 0#32 : (⟨S_, .i32⟩ : BufTy).Contents (Elt F)),
    unary main_c_14 main_v40 (broadcastInDim S1048576 ![] bcast_S_S1048576 : (⟨S_, .i32⟩ : BufTy).Contents (Elt F) → (⟨S1048576, .i32⟩ : BufTy).Contents (Elt F)),
    binary main_v39 main_v40 main_v41 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 1024#32 : (⟨S_, .i32⟩ : BufTy).Contents (Elt F)),
    unary main_c_15 main_v42 (broadcastInDim S1048576 ![] bcast_S_S1048576 : (⟨S_, .i32⟩ : BufTy).Contents (Elt F) → (⟨S1048576, .i32⟩ : BufTy).Contents (Elt F)),
    binary main_v39 main_v42 main_v43 (addi : (⟨S1048576, .i32⟩ : BufTy).Contents (Elt F) → (⟨S1048576, .i32⟩ : BufTy).Contents (Elt F) → (⟨S1048576, .i32⟩ : BufTy).Contents (Elt F)),
    ternary main_v41 main_v43 main_v39 main_v44 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v44 main_v45 (broadcastInDim S1048576x1 ![0] bcast_S1048576_S1048576x1_0 : (⟨S1048576, .i32⟩ : BufTy).Contents (Elt F) → (⟨S1048576x1, .i32⟩ : BufTy).Contents (Elt F)),
    binary main_v28 main_v45 main_v46 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    binary main_v37 main_v46 main_v47 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    unary main_v47 main_v48 ((transpose S256x1048576 [1, 0] · transposes_S1048576x256_S256x1048576_1_0) : (⟨S1048576x256, .f32⟩ : BufTy).Contents (Elt F) → (⟨S256x1048576, .f32⟩ : BufTy).Contents (Elt F)) ]

/-- operations 148 … 184 -/
abbrev ops4 : List (HloOp τ sig (Elt F)) :=
  [ unary main_arg3 main_v49 ((transpose S1x256 [1, 0] · transposes_S256x1_S1x256_1_0) : (⟨S256x1, .f32⟩ : BufTy).Contents (Elt F) → (⟨S1x256, .f32⟩ : BufTy).Contents (Elt F)),
    binary main_v49 main_v48 main_v50 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    reshape main_v50 main_v51 rfl shapeCasts_S1x1048576_S1048576,
    nullary main_cst (constant S_ .f32 0x3E4CCCCD#32 : (⟨S_, .f32⟩ : BufTy).Contents (Elt F)),
    nullary main_call9_cst (constant S_ .f32 0x00000000#32 : (⟨S_, .f32⟩ : BufTy).Contents (Elt F)),
    unary main_call9_cst main_call9_v0 ((broadcastInDim S1048576 ![] bcast_S_S1048576) : (⟨S_, .f32⟩ : BufTy).Contents (Elt F) → (⟨S1048576, .f32⟩ : BufTy).Contents (Elt F)),
    binary main_v51 main_call9_v0 main_call9_v1 ((cmpf .oge) : (⟨S1048576, .f32⟩ : BufTy).Contents (Elt F) → (⟨S1048576, .f32⟩ : BufTy).Contents (Elt F) → (⟨S1048576, .i1⟩ : BufTy).Contents (Elt F)),
    unary main_cst main_call9_v2 (id : (⟨S_, .f32⟩ : BufTy).Contents (Elt F) → (⟨S_, .f32⟩ : BufTy).Contents (Elt F)),
    unary main_call9_v2 main_call9_v3 ((broadcastInDim S1048576 ![] bcast_S_S1048576) : (⟨S_, .f32⟩ : BufTy).Contents (Elt F) → (⟨S1048576, .f32⟩ : BufTy).Contents (Elt F)),
    binary main_call9_v3 main_v51 main_call9_v4 (mulf : (⟨S1048576, .f32⟩ : BufTy).Contents (Elt F) → (⟨S1048576, .f32⟩ : BufTy).Contents (Elt F) → (⟨S1048576, .f32⟩ : BufTy).Contents (Elt F)),
    ternary main_call9_v1 main_v51 main_call9_v4 main_v52 (select : (⟨S1048576, .i1⟩ : BufTy).Contents (Elt F) → (⟨S1048576, .f32⟩ : BufTy).Contents (Elt F) → (⟨S1048576, .f32⟩ : BufTy).Contents (Elt F) → (⟨S1048576, .f32⟩ : BufTy).Contents (Elt F)),
    unary main_v52 main_v53 (Host.negf : (⟨S1048576, .f32⟩ : BufTy).Contents (Elt F) → (⟨S1048576, .f32⟩ : BufTy).Contents (Elt F)),
    unary main_v53 main_v54 (Host.exp : (⟨S1048576, .f32⟩ : BufTy).Contents (Elt F) → (⟨S1048576, .f32⟩ : BufTy).Contents (Elt F)),
    nullary main_cst_16 (constant S_ .f32 0x00000000#32 : (⟨S_, .f32⟩ : BufTy).Contents (Elt F)),
    unary main_cst_16 main_v55 (broadcastInDim S1024x1 ![] bcast_S_S1024x1 : (⟨S_, .f32⟩ : BufTy).Contents (Elt F) → (⟨S1024x1, .f32⟩ : BufTy).Contents (Elt F)),
    unary main_v27 main_v56 ((extractStridedSlice S1x1048576 ![0, 0] · slices_S2x1048576_S1x1048576_0_0) : (⟨S2x1048576, .i32⟩ : BufTy).Contents (Elt F) → (⟨S1x1048576, .i32⟩ : BufTy).Contents (Elt F)),
    reshape main_v56 main_v57 rfl shapeCasts_S1x1048576_S1048576,
    unary main_v54 main_v58 (broadcastInDim S1048576x1 ![0] bcast_S1048576_S1048576x1_0 : (⟨S1048576, .f32⟩ : BufTy).Contents (Elt F) → (⟨S1048576x1, .f32⟩ : BufTy).Contents (Elt F)),
    nullary main_c_17 (constantI S_ 32 0#32 : (⟨S_, .i32⟩ : BufTy).Contents (Elt F)),
    unary main_c_17 main_v59 (broadcastInDim S1048576 ![] bcast_S_S1048576 : (⟨S_, .i32⟩ : BufTy).Contents (Elt F) → (⟨S1048576, .i32⟩ : BufTy).Contents (Elt F)),
    binary main_v57 main_v59 main_v60 (cmpi .slt : (⟨S1048576, .i32⟩ : BufTy).Contents (Elt F) → (⟨S1048576, .i32⟩ : BufTy).Contents (Elt F) → (⟨S1048576, .i1⟩ : BufTy).Contents (Elt F)),
    nullary main_c_18 (constantI S_ 32 1024#32 : (⟨S_, .i32⟩ : BufTy).Contents (Elt F)),
    unary main_c_18 main_v61 (broadcastInDim S1048576 ![] bcast_S_S1048576 : (⟨S_, .i32⟩ : BufTy).Contents (Elt F) → (⟨S1048576, .i32⟩ : BufTy).Contents (Elt F)),
    binary main_v57 main_v61 main_v62 (addi : (⟨S1048576, .i32⟩ : BufTy).Contents (Elt F) → (⟨S1048576, .i32⟩ : BufTy).Contents (Elt F) → (⟨S1048576, .i32⟩ : BufTy).Contents (Elt F)),
    ternary main_v60 main_v62 main_v57 main_v63 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v63 main_v64 (broadcastInDim S1048576x1 ![0] bcast_S1048576_S1048576x1_0 : (⟨S1048576, .i32⟩ : BufTy).Contents (Elt F) → (⟨S1048576x1, .i32⟩ : BufTy).Contents (Elt F)),
    ternary main_v55 main_v64 main_v58 main_v65 ((fun x i u => Host.scatterAdd scatter_S1024x1_S1048576x1_S1048576x1_1_0_0_1 x i u) : (⟨S1024x1, .f32⟩ : BufTy).Contents (Elt F) → (⟨S1048576x1, .i32⟩ : BufTy).Contents (Elt F) → (⟨S1048576x1, .f32⟩ : BufTy).Contents (Elt F) → (⟨S1024x1, .f32⟩ : BufTy).Contents (Elt F)),
    nullary main_cst_19 (constant S_ .f32 0x00000000#32 : (⟨S_, .f32⟩ : BufTy).Contents (Elt F)),
    unary main_cst_19 main_v66 (broadcastInDim S1024x128 ![] bcast_S_S1024x128 : (⟨S_, .f32⟩ : BufTy).Contents (Elt F) → (⟨S1024x128, .f32⟩ : BufTy).Contents (Elt F)),
    unary main_v27 main_v67 ((extractStridedSlice S1x1048576 ![0, 0] · slices_S2x1048576_S1x1048576_0_0) : (⟨S2x1048576, .i32⟩ : BufTy).Contents (Elt F) → (⟨S1x1048576, .i32⟩ : BufTy).Contents (Elt F)),
    reshape main_v67 main_v68 rfl shapeCasts_S1x1048576_S1048576,
    unary main_v54 main_v69 (broadcastInDim S1048576x1 ![0] bcast_S1048576_S1048576x1_0 : (⟨S1048576, .f32⟩ : BufTy).Contents (Elt F) → (⟨S1048576x1, .f32⟩ : BufTy).Contents (Elt F)),
    unary main_v27 main_v70 ((extractStridedSlice S1x1048576 ![1, 0] · slices_S2x1048576_S1x1048576_1_0) : (⟨S2x1048576, .i32⟩ : BufTy).Contents (Elt F) → (⟨S1x1048576, .i32⟩ : BufTy).Contents (Elt F)),
    reshape main_v70 main_v71 rfl shapeCasts_S1x1048576_S1048576,
    nullary main_c_20 (constantI S_ 32 0#32 : (⟨S_, .i32⟩ : BufTy).Contents (Elt F)),
    unary main_c_20 main_v72 (broadcastInDim S1048576 ![] bcast_S_S1048576 : (⟨S_, .i32⟩ : BufTy).Contents (Elt F) → (⟨S1048576, .i32⟩ : BufTy).Contents (Elt F)),
    binary main_v71 main_v72 main_v73 (cmpi .slt : (⟨S1048576, .i32⟩ : BufTy).Contents (Elt F) → (⟨S1048576, .i32⟩ : BufTy).Contents (Elt F) → (⟨S1048576, .i1⟩ : BufTy).Contents (Elt F)) ]

/-- operations 185 … 221 -/
abbrev ops5 : List (HloOp τ sig (Elt F)) :=
  [ nullary main_c_21 (constantI S_ 32 1024#32 : (⟨S_, .i32⟩ : BufTy).Contents (Elt F)),
    unary main_c_21 main_v74 (broadcastInDim S1048576 ![] bcast_S_S1048576 : (⟨S_, .i32⟩ : BufTy).Contents (Elt F) → (⟨S1048576, .i32⟩ : BufTy).Contents (Elt F)),
    binary main_v71 main_v74 main_v75 (addi : (⟨S1048576, .i32⟩ : BufTy).Contents (Elt F) → (⟨S1048576, .i32⟩ : BufTy).Contents (Elt F) → (⟨S1048576, .i32⟩ : BufTy).Contents (Elt F)),
    ternary main_v73 main_v75 main_v71 main_v76 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v76 main_v77 (broadcastInDim S1048576x1 ![0] bcast_S1048576_S1048576x1_0 : (⟨S1048576, .i32⟩ : BufTy).Contents (Elt F) → (⟨S1048576x1, .i32⟩ : BufTy).Contents (Elt F)),
    binary main_v28 main_v77 main_v78 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    unary main_v69 main_v79 (broadcastInDim S1048576x128 ![0, 1] bcast_S1048576x1_S1048576x128_0_1 : (⟨S1048576x1, .f32⟩ : BufTy).Contents (Elt F) → (⟨S1048576x128, .f32⟩ : BufTy).Contents (Elt F)),
    binary main_v79 main_v78 main_v80 (mulf : (⟨S1048576x128, .f32⟩ : BufTy).Contents (Elt F) → (⟨S1048576x128, .f32⟩ : BufTy).Contents (Elt F) → (⟨S1048576x128, .f32⟩ : BufTy).Contents (Elt F)),
    nullary main_c_22 (constantI S_ 32 0#32 : (⟨S_, .i32⟩ : BufTy).Contents (Elt F)),
    unary main_c_22 main_v81 (broadcastInDim S1048576 ![] bcast_S_S1048576 : (⟨S_, .i32⟩ : BufTy).Contents (Elt F) → (⟨S1048576, .i32⟩ : BufTy).Contents (Elt F)),
    binary main_v68 main_v81 main_v82 (cmpi .slt : (⟨S1048576, .i32⟩ : BufTy).Contents (Elt F) → (⟨S1048576, .i32⟩ : BufTy).Contents (Elt F) → (⟨S1048576, .i1⟩ : BufTy).Contents (Elt F)),
    nullary main_c_23 (constantI S_ 32 1024#32 : (⟨S_, .i32⟩ : BufTy).Contents (Elt F)),
    unary main_c_23 main_v83 (broadcastInDim S1048576 ![] bcast_S_S1048576 : (⟨S_, .i32⟩ : BufTy).Contents (Elt F) → (⟨S1048576, .i32⟩ : BufTy).Contents (Elt F)),
    binary main_v68 main_v83 main_v84 (addi : (⟨S1048576, .i32⟩ : BufTy).Contents (Elt F) → (⟨S1048576, .i32⟩ : BufTy).Contents (Elt F) → (⟨S1048576, .i32⟩ : BufTy).Contents (Elt F)),
    ternary main_v82 main_v84 main_v68 main_v85 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v85 main_v86 (broadcastInDim S1048576x1 ![0] bcast_S1048576_S1048576x1_0 : (⟨S1048576, .i32⟩ : BufTy).Contents (Elt F) → (⟨S1048576x1, .i32⟩ : BufTy).Contents (Elt F)),
    ternary main_v66 main_v86 main_v80 main_v87 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    nullary main_cst_24 (constant S_ .f32 0x3089705F#32 : (⟨S_, .f32⟩ : BufTy).Contents (Elt F)),
    unary main_cst_24 main_v88 (broadcastInDim S1024x1 ![] bcast_S_S1024x1 : (⟨S_, .f32⟩ : BufTy).Contents (Elt F) → (⟨S1024x1, .f32⟩ : BufTy).Contents (Elt F)),
    binary main_v65 main_v88 main_v89 (addf : (⟨S1024x1, .f32⟩ : BufTy).Contents (Elt F) → (⟨S1024x1, .f32⟩ : BufTy).Contents (Elt F) → (⟨S1024x1, .f32⟩ : BufTy).Contents (Elt F)),
    unary main_v89 main_v90 (broadcastInDim S1024x128 ![0, 1] bcast_S1024x1_S1024x128_0_1 : (⟨S1024x1, .f32⟩ : BufTy).Contents (Elt F) → (⟨S1024x128, .f32⟩ : BufTy).Contents (Elt F)),
    binary main_v87 main_v90 main_v91 (Host.divf : (⟨S1024x128, .f32⟩ : BufTy).Contents (Elt F) → (⟨S1024x128, .f32⟩ : BufTy).Contents (Elt F) → (⟨S1024x128, .f32⟩ : BufTy).Contents (Elt F)),
    nullary main_call10_cst (constant S_ .f32 0x00000000#32 : (⟨S_, .f32⟩ : BufTy).Contents (Elt F)),
    unary main_call10_cst main_call10_v0 ((broadcastInDim S1024x128 ![] bcast_S_S1024x128) : (⟨S_, .f32⟩ : BufTy).Contents (Elt F) → (⟨S1024x128, .f32⟩ : BufTy).Contents (Elt F)),
    binary main_v91 main_call10_v0 main_call10_v1 ((cmpf .ogt) : (⟨S1024x128, .f32⟩ : BufTy).Contents (Elt F) → (⟨S1024x128, .f32⟩ : BufTy).Contents (Elt F) → (⟨S1024x128, .i1⟩ : BufTy).Contents (Elt F)),
    nullary main_call10_cst_0 (constant S_ .f32 0x00000000#32 : (⟨S_, .f32⟩ : BufTy).Contents (Elt F)),
    unary main_call10_cst_0 main_call10_v2 ((broadcastInDim S1024x128 ![] bcast_S_S1024x128) : (⟨S_, .f32⟩ : BufTy).Contents (Elt F) → (⟨S1024x128, .f32⟩ : BufTy).Contents (Elt F)),
    binary main_v91 main_call10_v2 main_call10_v3 ((cmpf .ogt) : (⟨S1024x128, .f32⟩ : BufTy).Contents (Elt F) → (⟨S1024x128, .f32⟩ : BufTy).Contents (Elt F) → (⟨S1024x128, .i1⟩ : BufTy).Contents (Elt F)),
    nullary main_call10_cst_1 (constant S_ .f32 0x00000000#32 : (⟨S_, .f32⟩ : BufTy).Contents (Elt F)),
    unary main_call10_cst_1 main_call10_call0_v0 (id : (⟨S_, .f32⟩ : BufTy).Contents (Elt F) → (⟨S_, .f32⟩ : BufTy).Contents (Elt F)),
    unary main_call10_call0_v0 main_call10_call0_v1 ((broadcastInDim S1024x128 ![] bcast_S_S1024x128) : (⟨S_, .f32⟩ : BufTy).Contents (Elt F) → (⟨S1024x128, .f32⟩ : BufTy).Contents (Elt F)),
    ternary main_call10_v3 main_call10_call0_v1 main_v91 main_call10_v4 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)),
    unary main_call10_v4 main_call10_v5 (Host.expm1 : (⟨S1024x128, .f32⟩ : BufTy).Contents (Elt F) → (⟨S1024x128, .f32⟩ : BufTy).Contents (Elt F)),
    nullary main_call10_cst_2 (constant S_ .f32 0x3F800000#32 : (⟨S_, .f32⟩ : BufTy).Contents (Elt F)),
    unary main_call10_cst_2 main_call10_v6 ((broadcastInDim S1024x128 ![] bcast_S_S1024x128) : (⟨S_, .f32⟩ : BufTy).Contents (Elt F) → (⟨S1024x128, .f32⟩ : BufTy).Contents (Elt F)),
    binary main_call10_v6 main_call10_v5 main_call10_v7 (mulf : (⟨S1024x128, .f32⟩ : BufTy).Contents (Elt F) → (⟨S1024x128, .f32⟩ : BufTy).Contents (Elt F) → (⟨S1024x128, .f32⟩ : BufTy).Contents (Elt F)),
    ternary main_call10_v1 main_v91 main_call10_v7 main_v92 (select : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)) ]

/-- all 222 operations, in program order -/
abbrev opsAll : List (HloOp τ sig (Elt F)) :=
  ops0 (F := F) ++ ops1 (F := F) ++ ops2 (F := F) ++ ops3 (F := F) ++ ops4 (F := F) ++ ops5 (F := F)

end Cert.ReferenceIdeal.OpsPlain

end
-- ==== Proof.RefStages.lean ====
/- Every tensor value of the reference program's @main (functions inlined at their call sites), in program order, as a
   definition: the printed operation's own function applied to the definitions of its operands; the four arguments are the
   variables X (features), ADJ (adjacency), W (weights), A (attention vector). s_<buffer> is the value the buffer <buffer> ends with.
   A table laid out from the printed program; it makes no argument. -/
import proofs.«147569_g13718125543874_cont_sun_m_270_16_alg».proof.Proof.Gen.ReferenceIdeal

noncomputable section

namespace Cert.ReferenceIdeal.Stage

open Idealize.ShloMosaic Cert.ReferenceIdeal Cert.ReferenceIdeal.Gen

variable {F : FTy → Type} [FloatOps F]

/-- the value of %c = stablehlo.constant dense<0> : tensor<i32> -/
def s_main_c : IVec S_ 32 :=
  constantI S_ 32 0#32

/-- the value of %0 = stablehlo.broadcast_in_dim %c, dims = [] : (tensor<i32>) -> tensor<1024x1024xi32> -/
def s_main_v0 : IVec S1024x1024 32 :=
  (broadcastInDim S1024x1024 ![] bcast_S_S1024x1024) s_main_c

/-- the value of %1 = stablehlo.compare NE, %arg1, %0, SIGNED : (tensor<1024x1024xi32>, tensor<1024x1024xi32>) -> tensor<1024x1024xi1> -/
def s_main_v1 (ADJ : IVec S1024x1024 32) : IVec S1024x1024 1 :=
  (cmpi .ne) ADJ s_main_v0

/-- the value of %0 = stablehlo.reshape %arg0 : (tensor<1024x1024xi1>) -> tensor<1048576xi1> -/
def s_main_call0_v0 (ADJ : IVec S1024x1024 32) : IVec S1048576 1 :=
  shapeCast S1048576 (s_main_v1 ADJ) shapeCasts_S1024x1024_S1048576

/-- the value of %1 = stablehlo.convert %0 : (tensor<1048576xi1>) -> tensor<1048576xi32> -/
def s_main_call0_v1 (ADJ : IVec S1024x1024 32) : IVec S1048576 32 :=
  (extui 32 · natLt_1_32) (s_main_call0_v0 ADJ)

/-- the value of %c = stablehlo.constant dense<0> : tensor<i32> -/
def s_main_call0_call0_c : IVec S_ 32 :=
  constantI S_ 32 0#32

/-- the value of %0 = stablehlo.broadcast_in_dim %c, dims = [] : (tensor<i32>) -> tensor<i32> -/
def s_main_call0_call0_v0 : IVec S_ 32 :=
  (broadcastInDim S_ ![] bcast_S_S_) s_main_call0_call0_c

/-- the value of %1 = "stablehlo.reduce_window"(%arg0, %0) <{base_dilations = array<i64: 1>, padding = dense<[[1048575, 0]]> : tensor<1x2xi64>, window_dilations = arra -/
def s_main_v2 (ADJ : IVec S1024x1024 32) : IVec S1048576 32 :=
  (fun x v => Host.reduceWindow IntOp.addi ![1048576] ![1] ![1048575] ![0] x v reduceWindows_S1048576_S1048576_w1048576s1p1048575_0 h_S_) (s_main_call0_v1 ADJ) s_main_call0_call0_v0

/-- the value of %c_0 = stablehlo.constant dense<0> : tensor<i32> -/
def s_main_c_0 : IVec S_ 32 :=
  constantI S_ 32 0#32

/-- the value of %3 = stablehlo.broadcast_in_dim %c_0, dims = [] : (tensor<i32>) -> tensor<1048576xi32> -/
def s_main_v3 : IVec S1048576 32 :=
  (broadcastInDim S1048576 ![] bcast_S_S1048576) s_main_c_0

/-- the value of %c_1 = stablehlo.constant dense<0> : tensor<i32> -/
def s_main_c_1 : IVec S_ 32 :=
  constantI S_ 32 0#32

/-- the value of %0 = stablehlo.convert %arg1 : tensor<i32> -/
def s_main_call1_v0 : IVec S_ 32 :=
  id s_main_c_1

/-- the value of %1 = stablehlo.broadcast_in_dim %0, dims = [] : (tensor<i32>) -> tensor<1048576xi32> -/
def s_main_call1_v1 : IVec S1048576 32 :=
  (broadcastInDim S1048576 ![] bcast_S_S1048576) s_main_call1_v0

/-- the value of %2 = stablehlo.maximum %1, %arg0 : tensor<1048576xi32> -/
def s_main_v4 (ADJ : IVec S1024x1024 32) : IVec S1048576 32 :=
  maxsi s_main_call1_v1 (s_main_v2 ADJ)

/-- the value of %c_2 = stablehlo.constant dense<0> : tensor<i32> -/
def s_main_c_2 : IVec S_ 32 :=
  constantI S_ 32 0#32

/-- the value of %5 = stablehlo.broadcast_in_dim %c_2, dims = [] : (tensor<i32>) -> tensor<1048576xi32> -/
def s_main_v5 : IVec S1048576 32 :=
  (broadcastInDim S1048576 ![] bcast_S_S1048576) s_main_c_2

/-- the value of %6 = stablehlo.compare LT, %4, %5, SIGNED : (tensor<1048576xi32>, tensor<1048576xi32>) -> tensor<1048576xi1> -/
def s_main_v6 (ADJ : IVec S1024x1024 32) : IVec S1048576 1 :=
  (cmpi .slt) (s_main_v4 ADJ) s_main_v5

/-- the value of %c_3 = stablehlo.constant dense<1048576> : tensor<i32> -/
def s_main_c_3 : IVec S_ 32 :=
  constantI S_ 32 1048576#32

/-- the value of %7 = stablehlo.broadcast_in_dim %c_3, dims = [] : (tensor<i32>) -> tensor<1048576xi32> -/
def s_main_v7 : IVec S1048576 32 :=
  (broadcastInDim S1048576 ![] bcast_S_S1048576) s_main_c_3

/-- the value of %8 = stablehlo.add %4, %7 : tensor<1048576xi32> -/
def s_main_v8 (ADJ : IVec S1024x1024 32) : IVec S1048576 32 :=
  addi (s_main_v4 ADJ) s_main_v7

/-- the value of %9 = stablehlo.select %6, %8, %4 : tensor<1048576xi1>, tensor<1048576xi32> -/
def s_main_v9 (ADJ : IVec S1024x1024 32) : IVec S1048576 32 :=
  select (s_main_v6 ADJ) (s_main_v8 ADJ) (s_main_v4 ADJ)

/-- the value of %10 = stablehlo.broadcast_in_dim %9, dims = [0] : (tensor<1048576xi32>) -> tensor<1048576x1xi32> -/
def s_main_v10 (ADJ : IVec S1024x1024 32) : IVec S1048576x1 32 :=
  (broadcastInDim S1048576x1 ![0] bcast_S1048576_S1048576x1_0) (s_main_v9 ADJ)

/-- the value of %c_4 = stablehlo.constant dense<1> : tensor<i32> -/
def s_main_c_4 : IVec S_ 32 :=
  constantI S_ 32 1#32

/-- the value of %11 = stablehlo.broadcast_in_dim %c_4, dims = [] : (tensor<i32>) -> tensor<1048576xi32> -/
def s_main_v11 : IVec S1048576 32 :=
  (broadcastInDim S1048576 ![] bcast_S_S1048576) s_main_c_4

/-- the value of %12 = "stablehlo.scatter"(%3, %10, %11) <{indices_are_sorted = false, scatter_dimension_numbers = #stablehlo.scatter<inserted_window_dims = [0], scatt -/
def s_main_v12 (ADJ : IVec S1024x1024 32) : IVec S1048576 32 :=
  (fun x i u => Host.scatter scatter_S1048576_S1048576x1_S1048576_n_0_0_1 IntOp.addi x i u) s_main_v3 (s_main_v10 ADJ) s_main_v11

/-- the value of %c = stablehlo.constant dense<0> : tensor<i32> -/
def s_main_call2_call0_c : IVec S_ 32 :=
  constantI S_ 32 0#32

/-- the value of %0 = stablehlo.broadcast_in_dim %c, dims = [] : (tensor<i32>) -> tensor<i32> -/
def s_main_call2_call0_v0 : IVec S_ 32 :=
  (broadcastInDim S_ ![] bcast_S_S_) s_main_call2_call0_c

/-- the value of %1 = "stablehlo.reduce_window"(%arg0, %0) <{base_dilations = array<i64: 1>, padding = dense<[[1048575, 0]]> : tensor<1x2xi64>, window_dilations = arra -/
def s_main_v13 (ADJ : IVec S1024x1024 32) : IVec S1048576 32 :=
  (fun x v => Host.reduceWindow IntOp.addi ![1048576] ![1] ![1048575] ![0] x v reduceWindows_S1048576_S1048576_w1048576s1p1048575_0 h_S_) (s_main_v12 ADJ) s_main_call2_call0_v0

/-- the value of %c_5 = stablehlo.constant dense<1024> : tensor<i32> -/
def s_main_c_5 : IVec S_ 32 :=
  constantI S_ 32 1024#32

/-- the value of %0 = stablehlo.broadcast_in_dim %arg1, dims = [] : (tensor<i32>) -> tensor<1048576xi32> -/
def s_main_call3_v0 : IVec S1048576 32 :=
  (broadcastInDim S1048576 ![] bcast_S_S1048576) s_main_c_5

/-- the value of %1 = stablehlo.divide %arg0, %0 : tensor<1048576xi32> -/
def s_main_call3_v1 (ADJ : IVec S1024x1024 32) : IVec S1048576 32 :=
  Host.divsi (s_main_v13 ADJ) s_main_call3_v0

/-- the value of %2 = stablehlo.sign %arg0 : tensor<1048576xi32> -/
def s_main_call3_v2 (ADJ : IVec S1024x1024 32) : IVec S1048576 32 :=
  signi (s_main_v13 ADJ)

/-- the value of %3 = stablehlo.sign %arg1 : tensor<i32> -/
def s_main_call3_v3 : IVec S_ 32 :=
  signi s_main_c_5

/-- the value of %4 = stablehlo.broadcast_in_dim %3, dims = [] : (tensor<i32>) -> tensor<1048576xi32> -/
def s_main_call3_v4 : IVec S1048576 32 :=
  (broadcastInDim S1048576 ![] bcast_S_S1048576) s_main_call3_v3

/-- the value of %5 = stablehlo.compare NE, %2, %4, SIGNED : (tensor<1048576xi32>, tensor<1048576xi32>) -> tensor<1048576xi1> -/
def s_main_call3_v5 (ADJ : IVec S1024x1024 32) : IVec S1048576 1 :=
  (cmpi .ne) (s_main_call3_v2 ADJ) s_main_call3_v4

/-- the value of %6 = stablehlo.broadcast_in_dim %arg1, dims = [] : (tensor<i32>) -> tensor<1048576xi32> -/
def s_main_call3_v6 : IVec S1048576 32 :=
  (broadcastInDim S1048576 ![] bcast_S_S1048576) s_main_c_5

/-- the value of %7 = stablehlo.remainder %arg0, %6 : tensor<1048576xi32> -/
def s_main_call3_v7 (ADJ : IVec S1024x1024 32) : IVec S1048576 32 :=
  Host.remsi (s_main_v13 ADJ) s_main_call3_v6

/-- the value of %c = stablehlo.constant dense<0> : tensor<i32> -/
def s_main_call3_c : IVec S_ 32 :=
  constantI S_ 32 0#32

/-- the value of %8 = stablehlo.broadcast_in_dim %c, dims = [] : (tensor<i32>) -> tensor<1048576xi32> -/
def s_main_call3_v8 : IVec S1048576 32 :=
  (broadcastInDim S1048576 ![] bcast_S_S1048576) s_main_call3_c

/-- the value of %9 = stablehlo.compare NE, %7, %8, SIGNED : (tensor<1048576xi32>, tensor<1048576xi32>) -> tensor<1048576xi1> -/
def s_main_call3_v9 (ADJ : IVec S1024x1024 32) : IVec S1048576 1 :=
  (cmpi .ne) (s_main_call3_v7 ADJ) s_main_call3_v8

/-- the value of %10 = stablehlo.and %5, %9 : tensor<1048576xi1> -/
def s_main_call3_v10 (ADJ : IVec S1024x1024 32) : IVec S1048576 1 :=
  andi (s_main_call3_v5 ADJ) (s_main_call3_v9 ADJ)

/-- the value of %c_0 = stablehlo.constant dense<1> : tensor<i32> -/
def s_main_call3_c_0 : IVec S_ 32 :=
  constantI S_ 32 1#32

/-- the value of %11 = stablehlo.broadcast_in_dim %c_0, dims = [] : (tensor<i32>) -> tensor<1048576xi32> -/
def s_main_call3_v11 : IVec S1048576 32 :=
  (broadcastInDim S1048576 ![] bcast_S_S1048576) s_main_call3_c_0

/-- the value of %12 = stablehlo.subtract %1, %11 : tensor<1048576xi32> -/
def s_main_call3_v12 (ADJ : IVec S1024x1024 32) : IVec S1048576 32 :=
  subi (s_main_call3_v1 ADJ) s_main_call3_v11

/-- the value of %0 = stablehlo.select %arg0, %arg1, %arg2 : tensor<1048576xi1>, tensor<1048576xi32> -/
def s_main_v14 (ADJ : IVec S1024x1024 32) : IVec S1048576 32 :=
  select (s_main_call3_v10 ADJ) (s_main_call3_v12 ADJ) (s_main_call3_v1 ADJ)

/-- the value of %c_6 = stablehlo.constant dense<1024> : tensor<i32> -/
def s_main_c_6 : IVec S_ 32 :=
  constantI S_ 32 1024#32

/-- the value of %0 = stablehlo.convert %arg1 : tensor<i32> -/
def s_main_call4_v0 : IVec S_ 32 :=
  id s_main_c_6

/-- the value of %c = stablehlo.constant dense<0> : tensor<i32> -/
def s_main_call4_c : IVec S_ 32 :=
  constantI S_ 32 0#32

/-- the value of %1 = stablehlo.compare EQ, %0, %c, SIGNED : (tensor<i32>, tensor<i32>) -> tensor<i1> -/
def s_main_call4_v1 : IVec S_ 1 :=
  (cmpi .eq) s_main_call4_v0 s_main_call4_c

/-- the value of %c_0 = stablehlo.constant dense<1> : tensor<i32> -/
def s_main_call4_c_0 : IVec S_ 32 :=
  constantI S_ 32 1#32

/-- the value of %0 = stablehlo.select %arg0, %arg1, %arg2 : tensor<i1>, tensor<i32> -/
def s_main_call4_v2 : IVec S_ 32 :=
  select s_main_call4_v1 s_main_call4_c_0 s_main_call4_v0

/-- the value of %3 = stablehlo.broadcast_in_dim %2, dims = [] : (tensor<i32>) -> tensor<1048576xi32> -/
def s_main_call4_v3 : IVec S1048576 32 :=
  (broadcastInDim S1048576 ![] bcast_S_S1048576) s_main_call4_v2

/-- the value of %4 = stablehlo.remainder %arg0, %3 : tensor<1048576xi32> -/
def s_main_call4_v4 (ADJ : IVec S1024x1024 32) : IVec S1048576 32 :=
  Host.remsi (s_main_v14 ADJ) s_main_call4_v3

/-- the value of %c_1 = stablehlo.constant dense<0> : tensor<i32> -/
def s_main_call4_c_1 : IVec S_ 32 :=
  constantI S_ 32 0#32

/-- the value of %5 = stablehlo.broadcast_in_dim %c_1, dims = [] : (tensor<i32>) -> tensor<1048576xi32> -/
def s_main_call4_v5 : IVec S1048576 32 :=
  (broadcastInDim S1048576 ![] bcast_S_S1048576) s_main_call4_c_1

/-- the value of %6 = stablehlo.compare NE, %4, %5, SIGNED : (tensor<1048576xi32>, tensor<1048576xi32>) -> tensor<1048576xi1> -/
def s_main_call4_v6 (ADJ : IVec S1024x1024 32) : IVec S1048576 1 :=
  (cmpi .ne) (s_main_call4_v4 ADJ) s_main_call4_v5

/-- the value of %c_2 = stablehlo.constant dense<0> : tensor<i32> -/
def s_main_call4_c_2 : IVec S_ 32 :=
  constantI S_ 32 0#32

/-- the value of %7 = stablehlo.broadcast_in_dim %c_2, dims = [] : (tensor<i32>) -> tensor<1048576xi32> -/
def s_main_call4_v7 : IVec S1048576 32 :=
  (broadcastInDim S1048576 ![] bcast_S_S1048576) s_main_call4_c_2

/-- the value of %8 = stablehlo.compare LT, %4, %7, SIGNED : (tensor<1048576xi32>, tensor<1048576xi32>) -> tensor<1048576xi1> -/
def s_main_call4_v8 (ADJ : IVec S1024x1024 32) : IVec S1048576 1 :=
  (cmpi .slt) (s_main_call4_v4 ADJ) s_main_call4_v7

/-- the value of %c_3 = stablehlo.constant dense<0> : tensor<i32> -/
def s_main_call4_c_3 : IVec S_ 32 :=
  constantI S_ 32 0#32

/-- the value of %9 = stablehlo.compare LT, %2, %c_3, SIGNED : (tensor<i32>, tensor<i32>) -> tensor<i1> -/
def s_main_call4_v9 : IVec S_ 1 :=
  (cmpi .slt) s_main_call4_v2 s_main_call4_c_3

/-- the value of %10 = stablehlo.broadcast_in_dim %9, dims = [] : (tensor<i1>) -> tensor<1048576xi1> -/
def s_main_call4_v10 : IVec S1048576 1 :=
  (broadcastInDim S1048576 ![] bcast_S_S1048576) s_main_call4_v9

/-- the value of %11 = stablehlo.compare NE, %8, %10, UNSIGNED : (tensor<1048576xi1>, tensor<1048576xi1>) -> tensor<1048576xi1> -/
def s_main_call4_v11 (ADJ : IVec S1024x1024 32) : IVec S1048576 1 :=
  (cmpi .ne) (s_main_call4_v8 ADJ) s_main_call4_v10

/-- the value of %12 = stablehlo.and %11, %6 : tensor<1048576xi1> -/
def s_main_call4_v12 (ADJ : IVec S1024x1024 32) : IVec S1048576 1 :=
  andi (s_main_call4_v11 ADJ) (s_main_call4_v6 ADJ)

/-- the value of %13 = stablehlo.broadcast_in_dim %2, dims = [] : (tensor<i32>) -> tensor<1048576xi32> -/
def s_main_call4_v13 : IVec S1048576 32 :=
  (broadcastInDim S1048576 ![] bcast_S_S1048576) s_main_call4_v2

/-- the value of %14 = stablehlo.add %4, %13 : tensor<1048576xi32> -/
def s_main_call4_v14 (ADJ : IVec S1024x1024 32) : IVec S1048576 32 :=
  addi (s_main_call4_v4 ADJ) s_main_call4_v13

/-- the value of %15 = stablehlo.select %12, %14, %4 : tensor<1048576xi1>, tensor<1048576xi32> -/
def s_main_v15 (ADJ : IVec S1024x1024 32) : IVec S1048576 32 :=
  select (s_main_call4_v12 ADJ) (s_main_call4_v14 ADJ) (s_main_call4_v4 ADJ)

/-- the value of %c_7 = stablehlo.constant dense<1> : tensor<i32> -/
def s_main_c_7 : IVec S_ 32 :=
  constantI S_ 32 1#32

/-- the value of %0 = stablehlo.broadcast_in_dim %arg1, dims = [] : (tensor<i32>) -> tensor<1048576xi32> -/
def s_main_call5_v0 : IVec S1048576 32 :=
  (broadcastInDim S1048576 ![] bcast_S_S1048576) s_main_c_7

/-- the value of %1 = stablehlo.divide %arg0, %0 : tensor<1048576xi32> -/
def s_main_call5_v1 (ADJ : IVec S1024x1024 32) : IVec S1048576 32 :=
  Host.divsi (s_main_v13 ADJ) s_main_call5_v0

/-- the value of %2 = stablehlo.sign %arg0 : tensor<1048576xi32> -/
def s_main_call5_v2 (ADJ : IVec S1024x1024 32) : IVec S1048576 32 :=
  signi (s_main_v13 ADJ)

/-- the value of %3 = stablehlo.sign %arg1 : tensor<i32> -/
def s_main_call5_v3 : IVec S_ 32 :=
  signi s_main_c_7

/-- the value of %4 = stablehlo.broadcast_in_dim %3, dims = [] : (tensor<i32>) -> tensor<1048576xi32> -/
def s_main_call5_v4 : IVec S1048576 32 :=
  (broadcastInDim S1048576 ![] bcast_S_S1048576) s_main_call5_v3

/-- the value of %5 = stablehlo.compare NE, %2, %4, SIGNED : (tensor<1048576xi32>, tensor<1048576xi32>) -> tensor<1048576xi1> -/
def s_main_call5_v5 (ADJ : IVec S1024x1024 32) : IVec S1048576 1 :=
  (cmpi .ne) (s_main_call5_v2 ADJ) s_main_call5_v4

/-- the value of %6 = stablehlo.broadcast_in_dim %arg1, dims = [] : (tensor<i32>) -> tensor<1048576xi32> -/
def s_main_call5_v6 : IVec S1048576 32 :=
  (broadcastInDim S1048576 ![] bcast_S_S1048576) s_main_c_7

/-- the value of %7 = stablehlo.remainder %arg0, %6 : tensor<1048576xi32> -/
def s_main_call5_v7 (ADJ : IVec S1024x1024 32) : IVec S1048576 32 :=
  Host.remsi (s_main_v13 ADJ) s_main_call5_v6

/-- the value of %c = stablehlo.constant dense<0> : tensor<i32> -/
def s_main_call5_c : IVec S_ 32 :=
  constantI S_ 32 0#32

/-- the value of %8 = stablehlo.broadcast_in_dim %c, dims = [] : (tensor<i32>) -> tensor<1048576xi32> -/
def s_main_call5_v8 : IVec S1048576 32 :=
  (broadcastInDim S1048576 ![] bcast_S_S1048576) s_main_call5_c

/-- the value of %9 = stablehlo.compare NE, %7, %8, SIGNED : (tensor<1048576xi32>, tensor<1048576xi32>) -> tensor<1048576xi1> -/
def s_main_call5_v9 (ADJ : IVec S1024x1024 32) : IVec S1048576 1 :=
  (cmpi .ne) (s_main_call5_v7 ADJ) s_main_call5_v8

/-- the value of %10 = stablehlo.and %5, %9 : tensor<1048576xi1> -/
def s_main_call5_v10 (ADJ : IVec S1024x1024 32) : IVec S1048576 1 :=
  andi (s_main_call5_v5 ADJ) (s_main_call5_v9 ADJ)

/-- the value of %c_0 = stablehlo.constant dense<1> : tensor<i32> -/
def s_main_call5_c_0 : IVec S_ 32 :=
  constantI S_ 32 1#32

/-- the value of %11 = stablehlo.broadcast_in_dim %c_0, dims = [] : (tensor<i32>) -> tensor<1048576xi32> -/
def s_main_call5_v11 : IVec S1048576 32 :=
  (broadcastInDim S1048576 ![] bcast_S_S1048576) s_main_call5_c_0

/-- the value of %12 = stablehlo.subtract %1, %11 : tensor<1048576xi32> -/
def s_main_call5_v12 (ADJ : IVec S1024x1024 32) : IVec S1048576 32 :=
  subi (s_main_call5_v1 ADJ) s_main_call5_v11

/-- the value of %0 = stablehlo.select %arg0, %arg1, %arg2 : tensor<1048576xi1>, tensor<1048576xi32> -/
def s_main_v16 (ADJ : IVec S1024x1024 32) : IVec S1048576 32 :=
  select (s_main_call5_v10 ADJ) (s_main_call5_v12 ADJ) (s_main_call5_v1 ADJ)

/-- the value of %c_8 = stablehlo.constant dense<1024> : tensor<i32> -/
def s_main_c_8 : IVec S_ 32 :=
  constantI S_ 32 1024#32

/-- the value of %0 = stablehlo.convert %arg1 : tensor<i32> -/
def s_main_call6_v0 : IVec S_ 32 :=
  id s_main_c_8

/-- the value of %c = stablehlo.constant dense<0> : tensor<i32> -/
def s_main_call6_c : IVec S_ 32 :=
  constantI S_ 32 0#32

/-- the value of %1 = stablehlo.compare EQ, %0, %c, SIGNED : (tensor<i32>, tensor<i32>) -> tensor<i1> -/
def s_main_call6_v1 : IVec S_ 1 :=
  (cmpi .eq) s_main_call6_v0 s_main_call6_c

/-- the value of %c_0 = stablehlo.constant dense<1> : tensor<i32> -/
def s_main_call6_c_0 : IVec S_ 32 :=
  constantI S_ 32 1#32

/-- the value of %0 = stablehlo.select %arg0, %arg1, %arg2 : tensor<i1>, tensor<i32> -/
def s_main_call6_v2 : IVec S_ 32 :=
  select s_main_call6_v1 s_main_call6_c_0 s_main_call6_v0

/-- the value of %3 = stablehlo.broadcast_in_dim %2, dims = [] : (tensor<i32>) -> tensor<1048576xi32> -/
def s_main_call6_v3 : IVec S1048576 32 :=
  (broadcastInDim S1048576 ![] bcast_S_S1048576) s_main_call6_v2

/-- the value of %4 = stablehlo.remainder %arg0, %3 : tensor<1048576xi32> -/
def s_main_call6_v4 (ADJ : IVec S1024x1024 32) : IVec S1048576 32 :=
  Host.remsi (s_main_v16 ADJ) s_main_call6_v3

/-- the value of %c_1 = stablehlo.constant dense<0> : tensor<i32> -/
def s_main_call6_c_1 : IVec S_ 32 :=
  constantI S_ 32 0#32

/-- the value of %5 = stablehlo.broadcast_in_dim %c_1, dims = [] : (tensor<i32>) -> tensor<1048576xi32> -/
def s_main_call6_v5 : IVec S1048576 32 :=
  (broadcastInDim S1048576 ![] bcast_S_S1048576) s_main_call6_c_1

/-- the value of %6 = stablehlo.compare NE, %4, %5, SIGNED : (tensor<1048576xi32>, tensor<1048576xi32>) -> tensor<1048576xi1> -/
def s_main_call6_v6 (ADJ : IVec S1024x1024 32) : IVec S1048576 1 :=
  (cmpi .ne) (s_main_call6_v4 ADJ) s_main_call6_v5

/-- the value of %c_2 = stablehlo.constant dense<0> : tensor<i32> -/
def s_main_call6_c_2 : IVec S_ 32 :=
  constantI S_ 32 0#32

/-- the value of %7 = stablehlo.broadcast_in_dim %c_2, dims = [] : (tensor<i32>) -> tensor<1048576xi32> -/
def s_main_call6_v7 : IVec S1048576 32 :=
  (broadcastInDim S1048576 ![] bcast_S_S1048576) s_main_call6_c_2

/-- the value of %8 = stablehlo.compare LT, %4, %7, SIGNED : (tensor<1048576xi32>, tensor<1048576xi32>) -> tensor<1048576xi1> -/
def s_main_call6_v8 (ADJ : IVec S1024x1024 32) : IVec S1048576 1 :=
  (cmpi .slt) (s_main_call6_v4 ADJ) s_main_call6_v7

/-- the value of %c_3 = stablehlo.constant dense<0> : tensor<i32> -/
def s_main_call6_c_3 : IVec S_ 32 :=
  constantI S_ 32 0#32

/-- the value of %9 = stablehlo.compare LT, %2, %c_3, SIGNED : (tensor<i32>, tensor<i32>) -> tensor<i1> -/
def s_main_call6_v9 : IVec S_ 1 :=
  (cmpi .slt) s_main_call6_v2 s_main_call6_c_3

/-- the value of %10 = stablehlo.broadcast_in_dim %9, dims = [] : (tensor<i1>) -> tensor<1048576xi1> -/
def s_main_call6_v10 : IVec S1048576 1 :=
  (broadcastInDim S1048576 ![] bcast_S_S1048576) s_main_call6_v9

/-- the value of %11 = stablehlo.compare NE, %8, %10, UNSIGNED : (tensor<1048576xi1>, tensor<1048576xi1>) -> tensor<1048576xi1> -/
def s_main_call6_v11 (ADJ : IVec S1024x1024 32) : IVec S1048576 1 :=
  (cmpi .ne) (s_main_call6_v8 ADJ) s_main_call6_v10

/-- the value of %12 = stablehlo.and %11, %6 : tensor<1048576xi1> -/
def s_main_call6_v12 (ADJ : IVec S1024x1024 32) : IVec S1048576 1 :=
  andi (s_main_call6_v11 ADJ) (s_main_call6_v6 ADJ)

/-- the value of %13 = stablehlo.broadcast_in_dim %2, dims = [] : (tensor<i32>) -> tensor<1048576xi32> -/
def s_main_call6_v13 : IVec S1048576 32 :=
  (broadcastInDim S1048576 ![] bcast_S_S1048576) s_main_call6_v2

/-- the value of %14 = stablehlo.add %4, %13 : tensor<1048576xi32> -/
def s_main_call6_v14 (ADJ : IVec S1024x1024 32) : IVec S1048576 32 :=
  addi (s_main_call6_v4 ADJ) s_main_call6_v13

/-- the value of %15 = stablehlo.select %12, %14, %4 : tensor<1048576xi1>, tensor<1048576xi32> -/
def s_main_v17 (ADJ : IVec S1024x1024 32) : IVec S1048576 32 :=
  select (s_main_call6_v12 ADJ) (s_main_call6_v14 ADJ) (s_main_call6_v4 ADJ)

/-- the value of %18 = stablehlo.iota dim = 0 : tensor<1048576xi32> -/
def s_main_v18 : IVec S1048576 32 :=
  iotaInDim S1048576 32 0

/-- the value of %19 = stablehlo.convert %1 : (tensor<1024x1024xi1>) -> tensor<1024x1024xi32> -/
def s_main_v19 (ADJ : IVec S1024x1024 32) : IVec S1024x1024 32 :=
  (extui 32 · natLt_1_32) (s_main_v1 ADJ)

/-- the value of %c_9 = stablehlo.constant dense<0> : tensor<i32> -/
def s_main_c_9 : IVec S_ 32 :=
  constantI S_ 32 0#32

/-- the value of %20 = stablehlo.reduce(%19 init: %c_9) applies stablehlo.add across dimensions = [0, 1] : (tensor<1024x1024xi32>, tensor<i32>) -> tensor<i32> { -/
def s_main_v20 (ADJ : IVec S1024x1024 32) : IVec S_ 32 :=
  (fun x v => Host.reduce IntOp.addi x v reducesTo_S1024x1024_S_d0_1 h_S_) (s_main_v19 ADJ) s_main_c_9

/-- the value of %21 = stablehlo.broadcast_in_dim %20, dims = [] : (tensor<i32>) -> tensor<1048576xi32> -/
def s_main_v21 (ADJ : IVec S1024x1024 32) : IVec S1048576 32 :=
  (broadcastInDim S1048576 ![] bcast_S_S1048576) (s_main_v20 ADJ)

/-- the value of %22 = stablehlo.compare GE, %18, %21, SIGNED : (tensor<1048576xi32>, tensor<1048576xi32>) -> tensor<1048576xi1> -/
def s_main_v22 (ADJ : IVec S1024x1024 32) : IVec S1048576 1 :=
  (cmpi .sge) s_main_v18 (s_main_v21 ADJ)

/-- the value of %c_10 = stablehlo.constant dense<1024> : tensor<i32> -/
def s_main_c_10 : IVec S_ 32 :=
  constantI S_ 32 1024#32

/-- the value of %0 = stablehlo.convert %arg1 : tensor<i32> -/
def s_main_call7_v0 : IVec S_ 32 :=
  id s_main_c_10

/-- the value of %1 = stablehlo.broadcast_in_dim %0, dims = [] : (tensor<i32>) -> tensor<1048576xi32> -/
def s_main_call7_v1 : IVec S1048576 32 :=
  (broadcastInDim S1048576 ![] bcast_S_S1048576) s_main_call7_v0

/-- the value of %2 = stablehlo.select %arg0, %1, %arg2 : tensor<1048576xi1>, tensor<1048576xi32> -/
def s_main_v23 (ADJ : IVec S1024x1024 32) : IVec S1048576 32 :=
  select (s_main_v22 ADJ) s_main_call7_v1 (s_main_v15 ADJ)

/-- the value of %c_11 = stablehlo.constant dense<1024> : tensor<i32> -/
def s_main_c_11 : IVec S_ 32 :=
  constantI S_ 32 1024#32

/-- the value of %0 = stablehlo.convert %arg1 : tensor<i32> -/
def s_main_call8_v0 : IVec S_ 32 :=
  id s_main_c_11

/-- the value of %1 = stablehlo.broadcast_in_dim %0, dims = [] : (tensor<i32>) -> tensor<1048576xi32> -/
def s_main_call8_v1 : IVec S1048576 32 :=
  (broadcastInDim S1048576 ![] bcast_S_S1048576) s_main_call8_v0

/-- the value of %2 = stablehlo.select %arg0, %1, %arg2 : tensor<1048576xi1>, tensor<1048576xi32> -/
def s_main_v24 (ADJ : IVec S1024x1024 32) : IVec S1048576 32 :=
  select (s_main_v22 ADJ) s_main_call8_v1 (s_main_v17 ADJ)

/-- the value of %25 = stablehlo.broadcast_in_dim %23, dims = [1] : (tensor<1048576xi32>) -> tensor<1x1048576xi32> -/
def s_main_v25 (ADJ : IVec S1024x1024 32) : IVec S1x1048576 32 :=
  (broadcastInDim S1x1048576 ![1] bcast_S1048576_S1x1048576_1) (s_main_v23 ADJ)

/-- the value of %26 = stablehlo.broadcast_in_dim %24, dims = [1] : (tensor<1048576xi32>) -> tensor<1x1048576xi32> -/
def s_main_v26 (ADJ : IVec S1024x1024 32) : IVec S1x1048576 32 :=
  (broadcastInDim S1x1048576 ![1] bcast_S1048576_S1x1048576_1) (s_main_v24 ADJ)

/-- the value of %27 = stablehlo.concatenate %25, %26, dim = 0 : (tensor<1x1048576xi32>, tensor<1x1048576xi32>) -> tensor<2x1048576xi32> -/
def s_main_v27 (ADJ : IVec S1024x1024 32) : IVec S2x1048576 32 :=
  (fun a b => concatenate S2x1048576 0 [⟨S1x1048576, a⟩, ⟨S1x1048576, b⟩] concatenates_S1x1048576_S1x1048576_S2x1048576_d0) (s_main_v25 ADJ) (s_main_v26 ADJ)

/-- the value of %28 = stablehlo.dot_general %arg0, %arg2, contracting_dims = [1] x [0], precision = [DEFAULT, DEFAULT] : (tensor<1024x128xf32>, tensor<128x128xf32>) - -/
def s_main_v28 (X : FVec F S1024x128 .f32) (W : FVec F S128x128 .f32) : FVec F S1024x128 .f32 :=
  (fun l r => Host.dotGeneral dot_S1024x128_S128x128_S1024x128_1_0_0_1_n_n none l r) X W

/-- the value of %29 = stablehlo.slice %27 [0:1, 0:1048576] : (tensor<2x1048576xi32>) -> tensor<1x1048576xi32> -/
def s_main_v29 (ADJ : IVec S1024x1024 32) : IVec S1x1048576 32 :=
  (extractStridedSlice S1x1048576 ![0, 0] · slices_S2x1048576_S1x1048576_0_0) (s_main_v27 ADJ)

/-- the value of %30 = stablehlo.reshape %29 : (tensor<1x1048576xi32>) -> tensor<1048576xi32> -/
def s_main_v30 (ADJ : IVec S1024x1024 32) : IVec S1048576 32 :=
  shapeCast S1048576 (s_main_v29 ADJ) shapeCasts_S1x1048576_S1048576

/-- the value of %c_12 = stablehlo.constant dense<0> : tensor<i32> -/
def s_main_c_12 : IVec S_ 32 :=
  constantI S_ 32 0#32

/-- the value of %31 = stablehlo.broadcast_in_dim %c_12, dims = [] : (tensor<i32>) -> tensor<1048576xi32> -/
def s_main_v31 : IVec S1048576 32 :=
  (broadcastInDim S1048576 ![] bcast_S_S1048576) s_main_c_12

/-- the value of %32 = stablehlo.compare LT, %30, %31, SIGNED : (tensor<1048576xi32>, tensor<1048576xi32>) -> tensor<1048576xi1> -/
def s_main_v32 (ADJ : IVec S1024x1024 32) : IVec S1048576 1 :=
  (cmpi .slt) (s_main_v30 ADJ) s_main_v31

/-- the value of %c_13 = stablehlo.constant dense<1024> : tensor<i32> -/
def s_main_c_13 : IVec S_ 32 :=
  constantI S_ 32 1024#32

/-- the value of %33 = stablehlo.broadcast_in_dim %c_13, dims = [] : (tensor<i32>) -> tensor<1048576xi32> -/
def s_main_v33 : IVec S1048576 32 :=
  (broadcastInDim S1048576 ![] bcast_S_S1048576) s_main_c_13

/-- the value of %34 = stablehlo.add %30, %33 : tensor<1048576xi32> -/
def s_main_v34 (ADJ : IVec S1024x1024 32) : IVec S1048576 32 :=
  addi (s_main_v30 ADJ) s_main_v33

/-- the value of %35 = stablehlo.select %32, %34, %30 : tensor<1048576xi1>, tensor<1048576xi32> -/
def s_main_v35 (ADJ : IVec S1024x1024 32) : IVec S1048576 32 :=
  select (s_main_v32 ADJ) (s_main_v34 ADJ) (s_main_v30 ADJ)

/-- the value of %36 = stablehlo.broadcast_in_dim %35, dims = [0] : (tensor<1048576xi32>) -> tensor<1048576x1xi32> -/
def s_main_v36 (ADJ : IVec S1024x1024 32) : IVec S1048576x1 32 :=
  (broadcastInDim S1048576x1 ![0] bcast_S1048576_S1048576x1_0) (s_main_v35 ADJ)

/-- the value of %37 = "stablehlo.gather"(%28, %36) <{dimension_numbers = #stablehlo.gather<offset_dims = [1], collapsed_slice_dims = [0], start_index_map = [0], index -/
def s_main_v37 (X : FVec F S1024x128 .f32) (ADJ : IVec S1024x1024 32) (W : FVec F S128x128 .f32) : FVec F S1048576x128 .f32 :=
  (fun x i => Host.gather gather_S1024x128_S1048576x1_S1048576x128_1_0_n_n_0_1_1128 x i) (s_main_v28 (F := F) X W) (s_main_v36 ADJ)

/-- the value of %38 = stablehlo.slice %27 [1:2, 0:1048576] : (tensor<2x1048576xi32>) -> tensor<1x1048576xi32> -/
def s_main_v38 (ADJ : IVec S1024x1024 32) : IVec S1x1048576 32 :=
  (extractStridedSlice S1x1048576 ![1, 0] · slices_S2x1048576_S1x1048576_1_0) (s_main_v27 ADJ)

/-- the value of %39 = stablehlo.reshape %38 : (tensor<1x1048576xi32>) -> tensor<1048576xi32> -/
def s_main_v39 (ADJ : IVec S1024x1024 32) : IVec S1048576 32 :=
  shapeCast S1048576 (s_main_v38 ADJ) shapeCasts_S1x1048576_S1048576

/-- the value of %c_14 = stablehlo.constant dense<0> : tensor<i32> -/
def s_main_c_14 : IVec S_ 32 :=
  constantI S_ 32 0#32

/-- the value of %40 = stablehlo.broadcast_in_dim %c_14, dims = [] : (tensor<i32>) -> tensor<1048576xi32> -/
def s_main_v40 : IVec S1048576 32 :=
  (broadcastInDim S1048576 ![] bcast_S_S1048576) s_main_c_14

/-- the value of %41 = stablehlo.compare LT, %39, %40, SIGNED : (tensor<1048576xi32>, tensor<1048576xi32>) -> tensor<1048576xi1> -/
def s_main_v41 (ADJ : IVec S1024x1024 32) : IVec S1048576 1 :=
  (cmpi .slt) (s_main_v39 ADJ) s_main_v40

/-- the value of %c_15 = stablehlo.constant dense<1024> : tensor<i32> -/
def s_main_c_15 : IVec S_ 32 :=
  constantI S_ 32 1024#32

/-- the value of %42 = stablehlo.broadcast_in_dim %c_15, dims = [] : (tensor<i32>) -> tensor<1048576xi32> -/
def s_main_v42 : IVec S1048576 32 :=
  (broadcastInDim S1048576 ![] bcast_S_S1048576) s_main_c_15

/-- the value of %43 = stablehlo.add %39, %42 : tensor<1048576xi32> -/
def s_main_v43 (ADJ : IVec S1024x1024 32) : IVec S1048576 32 :=
  addi (s_main_v39 ADJ) s_main_v42

/-- the value of %44 = stablehlo.select %41, %43, %39 : tensor<1048576xi1>, tensor<1048576xi32> -/
def s_main_v44 (ADJ : IVec S1024x1024 32) : IVec S1048576 32 :=
  select (s_main_v41 ADJ) (s_main_v43 ADJ) (s_main_v39 ADJ)

/-- the value of %45 = stablehlo.broadcast_in_dim %44, dims = [0] : (tensor<1048576xi32>) -> tensor<1048576x1xi32> -/
def s_main_v45 (ADJ : IVec S1024x1024 32) : IVec S1048576x1 32 :=
  (broadcastInDim S1048576x1 ![0] bcast_S1048576_S1048576x1_0) (s_main_v44 ADJ)

/-- the value of %46 = "stablehlo.gather"(%28, %45) <{dimension_numbers = #stablehlo.gather<offset_dims = [1], collapsed_slice_dims = [0], start_index_map = [0], index -/
def s_main_v46 (X : FVec F S1024x128 .f32) (ADJ : IVec S1024x1024 32) (W : FVec F S128x128 .f32) : FVec F S1048576x128 .f32 :=
  (fun x i => Host.gather gather_S1024x128_S1048576x1_S1048576x128_1_0_n_n_0_1_1128 x i) (s_main_v28 (F := F) X W) (s_main_v45 ADJ)

/-- the value of %47 = stablehlo.concatenate %37, %46, dim = 1 : (tensor<1048576x128xf32>, tensor<1048576x128xf32>) -> tensor<1048576x256xf32> -/
def s_main_v47 (X : FVec F S1024x128 .f32) (ADJ : IVec S1024x1024 32) (W : FVec F S128x128 .f32) : FVec F S1048576x256 .f32 :=
  (fun a b => concatenate S1048576x256 1 [⟨S1048576x128, a⟩, ⟨S1048576x128, b⟩] concatenates_S1048576x128_S1048576x128_S1048576x256_d1) (s_main_v37 (F := F) X ADJ W) (s_main_v46 (F := F) X ADJ W)

/-- the value of %48 = stablehlo.transpose %47, dims = [1, 0] : (tensor<1048576x256xf32>) -> tensor<256x1048576xf32> -/
def s_main_v48 (X : FVec F S1024x128 .f32) (ADJ : IVec S1024x1024 32) (W : FVec F S128x128 .f32) : FVec F S256x1048576 .f32 :=
  (transpose S256x1048576 [1, 0] · transposes_S1048576x256_S256x1048576_1_0) (s_main_v47 (F := F) X ADJ W)

/-- the value of %49 = stablehlo.transpose %arg3, dims = [1, 0] : (tensor<256x1xf32>) -> tensor<1x256xf32> -/
def s_main_v49 (A : FVec F S256x1 .f32) : FVec F S1x256 .f32 :=
  (transpose S1x256 [1, 0] · transposes_S256x1_S1x256_1_0) A

/-- the value of %50 = stablehlo.dot_general %49, %48, contracting_dims = [1] x [0], precision = [DEFAULT, DEFAULT] : (tensor<1x256xf32>, tensor<256x1048576xf32>) -> t -/
def s_main_v50 (X : FVec F S1024x128 .f32) (ADJ : IVec S1024x1024 32) (W : FVec F S128x128 .f32) (A : FVec F S256x1 .f32) : FVec F S1x1048576 .f32 :=
  (fun l r => Host.dotGeneral dot_S1x256_S256x1048576_S1x1048576_1_0_0_1_n_n none l r) (s_main_v49 (F := F) A) (s_main_v48 (F := F) X ADJ W)

/-- the value of %51 = stablehlo.reshape %50 : (tensor<1x1048576xf32>) -> tensor<1048576xf32> -/
def s_main_v51 (X : FVec F S1024x128 .f32) (ADJ : IVec S1024x1024 32) (W : FVec F S128x128 .f32) (A : FVec F S256x1 .f32) : FVec F S1048576 .f32 :=
  shapeCast S1048576 (s_main_v50 (F := F) X ADJ W A) shapeCasts_S1x1048576_S1048576

/-- the value of %cst = stablehlo.constant dense<2.000000e-01> : tensor<f32> -/
def s_main_cst : FVec F S_ .f32 :=
  constant (F := F) S_ .f32 0x3E4CCCCD#32

/-- the value of %cst = stablehlo.constant dense<0.000000e+00> : tensor<f32> -/
def s_main_call9_cst : FVec F S_ .f32 :=
  constant (F := F) S_ .f32 0x00000000#32

/-- the value of %0 = stablehlo.broadcast_in_dim %cst, dims = [] : (tensor<f32>) -> tensor<1048576xf32> -/
def s_main_call9_v0 : FVec F S1048576 .f32 :=
  (broadcastInDim S1048576 ![] bcast_S_S1048576) (s_main_call9_cst (F := F))

/-- the value of %1 = stablehlo.compare GE, %arg0, %0, FLOAT : (tensor<1048576xf32>, tensor<1048576xf32>) -> tensor<1048576xi1> -/
def s_main_call9_v1 (X : FVec F S1024x128 .f32) (ADJ : IVec S1024x1024 32) (W : FVec F S128x128 .f32) (A : FVec F S256x1 .f32) : IVec S1048576 1 :=
  (cmpf .oge) (s_main_v51 (F := F) X ADJ W A) (s_main_call9_v0 (F := F))

/-- the value of %2 = stablehlo.convert %arg1 : tensor<f32> -/
def s_main_call9_v2 : FVec F S_ .f32 :=
  id (s_main_cst (F := F))

/-- the value of %3 = stablehlo.broadcast_in_dim %2, dims = [] : (tensor<f32>) -> tensor<1048576xf32> -/
def s_main_call9_v3 : FVec F S1048576 .f32 :=
  (broadcastInDim S1048576 ![] bcast_S_S1048576) (s_main_call9_v2 (F := F))

/-- the value of %4 = stablehlo.multiply %3, %arg0 : tensor<1048576xf32> -/
def s_main_call9_v4 (X : FVec F S1024x128 .f32) (ADJ : IVec S1024x1024 32) (W : FVec F S128x128 .f32) (A : FVec F S256x1 .f32) : FVec F S1048576 .f32 :=
  mulf (s_main_call9_v3 (F := F)) (s_main_v51 (F := F) X ADJ W A)

/-- the value of %0 = stablehlo.select %arg0, %arg1, %arg2 : tensor<1048576xi1>, tensor<1048576xf32> -/
def s_main_v52 (X : FVec F S1024x128 .f32) (ADJ : IVec S1024x1024 32) (W : FVec F S128x128 .f32) (A : FVec F S256x1 .f32) : FVec F S1048576 .f32 :=
  select (s_main_call9_v1 (F := F) X ADJ W A) (s_main_v51 (F := F) X ADJ W A) (s_main_call9_v4 (F := F) X ADJ W A)

/-- the value of %53 = stablehlo.negate %52 : tensor<1048576xf32> -/
def s_main_v53 (X : FVec F S1024x128 .f32) (ADJ : IVec S1024x1024 32) (W : FVec F S128x128 .f32) (A : FVec F S256x1 .f32) : FVec F S1048576 .f32 :=
  Host.negf (s_main_v52 (F := F) X ADJ W A)

/-- the value of %54 = stablehlo.exponential %53 : tensor<1048576xf32> -/
def s_main_v54 (X : FVec F S1024x128 .f32) (ADJ : IVec S1024x1024 32) (W : FVec F S128x128 .f32) (A : FVec F S256x1 .f32) : FVec F S1048576 .f32 :=
  Host.exp (s_main_v53 (F := F) X ADJ W A)

/-- the value of %cst_16 = stablehlo.constant dense<0.000000e+00> : tensor<f32> -/
def s_main_cst_16 : FVec F S_ .f32 :=
  constant (F := F) S_ .f32 0x00000000#32

/-- the value of %55 = stablehlo.broadcast_in_dim %cst_16, dims = [] : (tensor<f32>) -> tensor<1024x1xf32> -/
def s_main_v55 : FVec F S1024x1 .f32 :=
  (broadcastInDim S1024x1 ![] bcast_S_S1024x1) (s_main_cst_16 (F := F))

/-- the value of %56 = stablehlo.slice %27 [0:1, 0:1048576] : (tensor<2x1048576xi32>) -> tensor<1x1048576xi32> -/
def s_main_v56 (ADJ : IVec S1024x1024 32) : IVec S1x1048576 32 :=
  (extractStridedSlice S1x1048576 ![0, 0] · slices_S2x1048576_S1x1048576_0_0) (s_main_v27 ADJ)

/-- the value of %57 = stablehlo.reshape %56 : (tensor<1x1048576xi32>) -> tensor<1048576xi32> -/
def s_main_v57 (ADJ : IVec S1024x1024 32) : IVec S1048576 32 :=
  shapeCast S1048576 (s_main_v56 ADJ) shapeCasts_S1x1048576_S1048576

/-- the value of %58 = stablehlo.broadcast_in_dim %54, dims = [0] : (tensor<1048576xf32>) -> tensor<1048576x1xf32> -/
def s_main_v58 (X : FVec F S1024x128 .f32) (ADJ : IVec S1024x1024 32) (W : FVec F S128x128 .f32) (A : FVec F S256x1 .f32) : FVec F S1048576x1 .f32 :=
  (broadcastInDim S1048576x1 ![0] bcast_S1048576_S1048576x1_0) (s_main_v54 (F := F) X ADJ W A)

/-- the value of %c_17 = stablehlo.constant dense<0> : tensor<i32> -/
def s_main_c_17 : IVec S_ 32 :=
  constantI S_ 32 0#32

/-- the value of %59 = stablehlo.broadcast_in_dim %c_17, dims = [] : (tensor<i32>) -> tensor<1048576xi32> -/
def s_main_v59 : IVec S1048576 32 :=
  (broadcastInDim S1048576 ![] bcast_S_S1048576) s_main_c_17

/-- the value of %60 = stablehlo.compare LT, %57, %59, SIGNED : (tensor<1048576xi32>, tensor<1048576xi32>) -> tensor<1048576xi1> -/
def s_main_v60 (ADJ : IVec S1024x1024 32) : IVec S1048576 1 :=
  (cmpi .slt) (s_main_v57 ADJ) s_main_v59

/-- the value of %c_18 = stablehlo.constant dense<1024> : tensor<i32> -/
def s_main_c_18 : IVec S_ 32 :=
  constantI S_ 32 1024#32

/-- the value of %61 = stablehlo.broadcast_in_dim %c_18, dims = [] : (tensor<i32>) -> tensor<1048576xi32> -/
def s_main_v61 : IVec S1048576 32 :=
  (broadcastInDim S1048576 ![] bcast_S_S1048576) s_main_c_18

/-- the value of %62 = stablehlo.add %57, %61 : tensor<1048576xi32> -/
def s_main_v62 (ADJ : IVec S1024x1024 32) : IVec S1048576 32 :=
  addi (s_main_v57 ADJ) s_main_v61

/-- the value of %63 = stablehlo.select %60, %62, %57 : tensor<1048576xi1>, tensor<1048576xi32> -/
def s_main_v63 (ADJ : IVec S1024x1024 32) : IVec S1048576 32 :=
  select (s_main_v60 ADJ) (s_main_v62 ADJ) (s_main_v57 ADJ)

/-- the value of %64 = stablehlo.broadcast_in_dim %63, dims = [0] : (tensor<1048576xi32>) -> tensor<1048576x1xi32> -/
def s_main_v64 (ADJ : IVec S1024x1024 32) : IVec S1048576x1 32 :=
  (broadcastInDim S1048576x1 ![0] bcast_S1048576_S1048576x1_0) (s_main_v63 ADJ)

/-- the value of %65 = "stablehlo.scatter"(%55, %64, %58) <{indices_are_sorted = false, scatter_dimension_numbers = #stablehlo.scatter<update_window_dims = [1], insert -/
def s_main_v65 (X : FVec F S1024x128 .f32) (ADJ : IVec S1024x1024 32) (W : FVec F S128x128 .f32) (A : FVec F S256x1 .f32) : FVec F S1024x1 .f32 :=
  (fun x i u => Host.scatterAdd scatter_S1024x1_S1048576x1_S1048576x1_1_0_0_1 x i u) (s_main_v55 (F := F)) (s_main_v64 ADJ) (s_main_v58 (F := F) X ADJ W A)

/-- the value of %cst_19 = stablehlo.constant dense<0.000000e+00> : tensor<f32> -/
def s_main_cst_19 : FVec F S_ .f32 :=
  constant (F := F) S_ .f32 0x00000000#32

/-- the value of %66 = stablehlo.broadcast_in_dim %cst_19, dims = [] : (tensor<f32>) -> tensor<1024x128xf32> -/
def s_main_v66 : FVec F S1024x128 .f32 :=
  (broadcastInDim S1024x128 ![] bcast_S_S1024x128) (s_main_cst_19 (F := F))

/-- the value of %67 = stablehlo.slice %27 [0:1, 0:1048576] : (tensor<2x1048576xi32>) -> tensor<1x1048576xi32> -/
def s_main_v67 (ADJ : IVec S1024x1024 32) : IVec S1x1048576 32 :=
  (extractStridedSlice S1x1048576 ![0, 0] · slices_S2x1048576_S1x1048576_0_0) (s_main_v27 ADJ)

/-- the value of %68 = stablehlo.reshape %67 : (tensor<1x1048576xi32>) -> tensor<1048576xi32> -/
def s_main_v68 (ADJ : IVec S1024x1024 32) : IVec S1048576 32 :=
  shapeCast S1048576 (s_main_v67 ADJ) shapeCasts_S1x1048576_S1048576

/-- the value of %69 = stablehlo.broadcast_in_dim %54, dims = [0] : (tensor<1048576xf32>) -> tensor<1048576x1xf32> -/
def s_main_v69 (X : FVec F S1024x128 .f32) (ADJ : IVec S1024x1024 32) (W : FVec F S128x128 .f32) (A : FVec F S256x1 .f32) : FVec F S1048576x1 .f32 :=
  (broadcastInDim S1048576x1 ![0] bcast_S1048576_S1048576x1_0) (s_main_v54 (F := F) X ADJ W A)

/-- the value of %70 = stablehlo.slice %27 [1:2, 0:1048576] : (tensor<2x1048576xi32>) -> tensor<1x1048576xi32> -/
def s_main_v70 (ADJ : IVec S1024x1024 32) : IVec S1x1048576 32 :=
  (extractStridedSlice S1x1048576 ![1, 0] · slices_S2x1048576_S1x1048576_1_0) (s_main_v27 ADJ)

/-- the value of %71 = stablehlo.reshape %70 : (tensor<1x1048576xi32>) -> tensor<1048576xi32> -/
def s_main_v71 (ADJ : IVec S1024x1024 32) : IVec S1048576 32 :=
  shapeCast S1048576 (s_main_v70 ADJ) shapeCasts_S1x1048576_S1048576

/-- the value of %c_20 = stablehlo.constant dense<0> : tensor<i32> -/
def s_main_c_20 : IVec S_ 32 :=
  constantI S_ 32 0#32

/-- the value of %72 = stablehlo.broadcast_in_dim %c_20, dims = [] : (tensor<i32>) -> tensor<1048576xi32> -/
def s_main_v72 : IVec S1048576 32 :=
  (broadcastInDim S1048576 ![] bcast_S_S1048576) s_main_c_20

/-- the value of %73 = stablehlo.compare LT, %71, %72, SIGNED : (tensor<1048576xi32>, tensor<1048576xi32>) -> tensor<1048576xi1> -/
def s_main_v73 (ADJ : IVec S1024x1024 32) : IVec S1048576 1 :=
  (cmpi .slt) (s_main_v71 ADJ) s_main_v72

/-- the value of %c_21 = stablehlo.constant dense<1024> : tensor<i32> -/
def s_main_c_21 : IVec S_ 32 :=
  constantI S_ 32 1024#32

/-- the value of %74 = stablehlo.broadcast_in_dim %c_21, dims = [] : (tensor<i32>) -> tensor<1048576xi32> -/
def s_main_v74 : IVec S1048576 32 :=
  (broadcastInDim S1048576 ![] bcast_S_S1048576) s_main_c_21

/-- the value of %75 = stablehlo.add %71, %74 : tensor<1048576xi32> -/
def s_main_v75 (ADJ : IVec S1024x1024 32) : IVec S1048576 32 :=
  addi (s_main_v71 ADJ) s_main_v74

/-- the value of %76 = stablehlo.select %73, %75, %71 : tensor<1048576xi1>, tensor<1048576xi32> -/
def s_main_v76 (ADJ : IVec S1024x1024 32) : IVec S1048576 32 :=
  select (s_main_v73 ADJ) (s_main_v75 ADJ) (s_main_v71 ADJ)

/-- the value of %77 = stablehlo.broadcast_in_dim %76, dims = [0] : (tensor<1048576xi32>) -> tensor<1048576x1xi32> -/
def s_main_v77 (ADJ : IVec S1024x1024 32) : IVec S1048576x1 32 :=
  (broadcastInDim S1048576x1 ![0] bcast_S1048576_S1048576x1_0) (s_main_v76 ADJ)

/-- the value of %78 = "stablehlo.gather"(%28, %77) <{dimension_numbers = #stablehlo.gather<offset_dims = [1], collapsed_slice_dims = [0], start_index_map = [0], index -/
def s_main_v78 (X : FVec F S1024x128 .f32) (ADJ : IVec S1024x1024 32) (W : FVec F S128x128 .f32) : FVec F S1048576x128 .f32 :=
  (fun x i => Host.gather gather_S1024x128_S1048576x1_S1048576x128_1_0_n_n_0_1_1128 x i) (s_main_v28 (F := F) X W) (s_main_v77 ADJ)

/-- the value of %79 = stablehlo.broadcast_in_dim %69, dims = [0, 1] : (tensor<1048576x1xf32>) -> tensor<1048576x128xf32> -/
def s_main_v79 (X : FVec F S1024x128 .f32) (ADJ : IVec S1024x1024 32) (W : FVec F S128x128 .f32) (A : FVec F S256x1 .f32) : FVec F S1048576x128 .f32 :=
  (broadcastInDim S1048576x128 ![0, 1] bcast_S1048576x1_S1048576x128_0_1) (s_main_v69 (F := F) X ADJ W A)

/-- the value of %80 = stablehlo.multiply %79, %78 : tensor<1048576x128xf32> -/
def s_main_v80 (X : FVec F S1024x128 .f32) (ADJ : IVec S1024x1024 32) (W : FVec F S128x128 .f32) (A : FVec F S256x1 .f32) : FVec F S1048576x128 .f32 :=
  mulf (s_main_v79 (F := F) X ADJ W A) (s_main_v78 (F := F) X ADJ W)

/-- the value of %c_22 = stablehlo.constant dense<0> : tensor<i32> -/
def s_main_c_22 : IVec S_ 32 :=
  constantI S_ 32 0#32

/-- the value of %81 = stablehlo.broadcast_in_dim %c_22, dims = [] : (tensor<i32>) -> tensor<1048576xi32> -/
def s_main_v81 : IVec S1048576 32 :=
  (broadcastInDim S1048576 ![] bcast_S_S1048576) s_main_c_22

/-- the value of %82 = stablehlo.compare LT, %68, %81, SIGNED : (tensor<1048576xi32>, tensor<1048576xi32>) -> tensor<1048576xi1> -/
def s_main_v82 (ADJ : IVec S1024x1024 32) : IVec S1048576 1 :=
  (cmpi .slt) (s_main_v68 ADJ) s_main_v81

/-- the value of %c_23 = stablehlo.constant dense<1024> : tensor<i32> -/
def s_main_c_23 : IVec S_ 32 :=
  constantI S_ 32 1024#32

/-- the value of %83 = stablehlo.broadcast_in_dim %c_23, dims = [] : (tensor<i32>) -> tensor<1048576xi32> -/
def s_main_v83 : IVec S1048576 32 :=
  (broadcastInDim S1048576 ![] bcast_S_S1048576) s_main_c_23

/-- the value of %84 = stablehlo.add %68, %83 : tensor<1048576xi32> -/
def s_main_v84 (ADJ : IVec S1024x1024 32) : IVec S1048576 32 :=
  addi (s_main_v68 ADJ) s_main_v83

/-- the value of %85 = stablehlo.select %82, %84, %68 : tensor<1048576xi1>, tensor<1048576xi32> -/
def s_main_v85 (ADJ : IVec S1024x1024 32) : IVec S1048576 32 :=
  select (s_main_v82 ADJ) (s_main_v84 ADJ) (s_main_v68 ADJ)

/-- the value of %86 = stablehlo.broadcast_in_dim %85, dims = [0] : (tensor<1048576xi32>) -> tensor<1048576x1xi32> -/
def s_main_v86 (ADJ : IVec S1024x1024 32) : IVec S1048576x1 32 :=
  (broadcastInDim S1048576x1 ![0] bcast_S1048576_S1048576x1_0) (s_main_v85 ADJ)

/-- the value of %87 = "stablehlo.scatter"(%66, %86, %80) <{indices_are_sorted = false, scatter_dimension_numbers = #stablehlo.scatter<update_window_dims = [1], insert -/
def s_main_v87 (X : FVec F S1024x128 .f32) (ADJ : IVec S1024x1024 32) (W : FVec F S128x128 .f32) (A : FVec F S256x1 .f32) : FVec F S1024x128 .f32 :=
  (fun x i u => Host.scatterAdd scatter_S1024x128_S1048576x1_S1048576x128_1_0_0_1 x i u) (s_main_v66 (F := F)) (s_main_v86 ADJ) (s_main_v80 (F := F) X ADJ W A)

/-- the value of %cst_24 = stablehlo.constant dense<9.99999971E-10> : tensor<f32> -/
def s_main_cst_24 : FVec F S_ .f32 :=
  constant (F := F) S_ .f32 0x3089705F#32

/-- the value of %88 = stablehlo.broadcast_in_dim %cst_24, dims = [] : (tensor<f32>) -> tensor<1024x1xf32> -/
def s_main_v88 : FVec F S1024x1 .f32 :=
  (broadcastInDim S1024x1 ![] bcast_S_S1024x1) (s_main_cst_24 (F := F))

/-- the value of %89 = stablehlo.add %65, %88 : tensor<1024x1xf32> -/
def s_main_v89 (X : FVec F S1024x128 .f32) (ADJ : IVec S1024x1024 32) (W : FVec F S128x128 .f32) (A : FVec F S256x1 .f32) : FVec F S1024x1 .f32 :=
  addf (s_main_v65 (F := F) X ADJ W A) (s_main_v88 (F := F))

/-- the value of %90 = stablehlo.broadcast_in_dim %89, dims = [0, 1] : (tensor<1024x1xf32>) -> tensor<1024x128xf32> -/
def s_main_v90 (X : FVec F S1024x128 .f32) (ADJ : IVec S1024x1024 32) (W : FVec F S128x128 .f32) (A : FVec F S256x1 .f32) : FVec F S1024x128 .f32 :=
  (broadcastInDim S1024x128 ![0, 1] bcast_S1024x1_S1024x128_0_1) (s_main_v89 (F := F) X ADJ W A)

/-- the value of %91 = stablehlo.divide %87, %90 : tensor<1024x128xf32> -/
def s_main_v91 (X : FVec F S1024x128 .f32) (ADJ : IVec S1024x1024 32) (W : FVec F S128x128 .f32) (A : FVec F S256x1 .f32) : FVec F S1024x128 .f32 :=
  Host.divf (s_main_v87 (F := F) X ADJ W A) (s_main_v90 (F := F) X ADJ W A)

/-- the value of %cst = stablehlo.constant dense<0.000000e+00> : tensor<f32> -/
def s_main_call10_cst : FVec F S_ .f32 :=
  constant (F := F) S_ .f32 0x00000000#32

/-- the value of %0 = stablehlo.broadcast_in_dim %cst, dims = [] : (tensor<f32>) -> tensor<1024x128xf32> -/
def s_main_call10_v0 : FVec F S1024x128 .f32 :=
  (broadcastInDim S1024x128 ![] bcast_S_S1024x128) (s_main_call10_cst (F := F))

/-- the value of %1 = stablehlo.compare GT, %arg0, %0, FLOAT : (tensor<1024x128xf32>, tensor<1024x128xf32>) -> tensor<1024x128xi1> -/
def s_main_call10_v1 (X : FVec F S1024x128 .f32) (ADJ : IVec S1024x1024 32) (W : FVec F S128x128 .f32) (A : FVec F S256x1 .f32) : IVec S1024x128 1 :=
  (cmpf .ogt) (s_main_v91 (F := F) X ADJ W A) (s_main_call10_v0 (F := F))

/-- the value of %cst_0 = stablehlo.constant dense<0.000000e+00> : tensor<f32> -/
def s_main_call10_cst_0 : FVec F S_ .f32 :=
  constant (F := F) S_ .f32 0x00000000#32

/-- the value of %2 = stablehlo.broadcast_in_dim %cst_0, dims = [] : (tensor<f32>) -> tensor<1024x128xf32> -/
def s_main_call10_v2 : FVec F S1024x128 .f32 :=
  (broadcastInDim S1024x128 ![] bcast_S_S1024x128) (s_main_call10_cst_0 (F := F))

/-- the value of %3 = stablehlo.compare GT, %arg0, %2, FLOAT : (tensor<1024x128xf32>, tensor<1024x128xf32>) -> tensor<1024x128xi1> -/
def s_main_call10_v3 (X : FVec F S1024x128 .f32) (ADJ : IVec S1024x1024 32) (W : FVec F S128x128 .f32) (A : FVec F S256x1 .f32) : IVec S1024x128 1 :=
  (cmpf .ogt) (s_main_v91 (F := F) X ADJ W A) (s_main_call10_v2 (F := F))

/-- the value of %cst_1 = stablehlo.constant dense<0.000000e+00> : tensor<f32> -/
def s_main_call10_cst_1 : FVec F S_ .f32 :=
  constant (F := F) S_ .f32 0x00000000#32

/-- the value of %0 = stablehlo.convert %arg1 : tensor<f32> -/
def s_main_call10_call0_v0 : FVec F S_ .f32 :=
  id (s_main_call10_cst_1 (F := F))

/-- the value of %1 = stablehlo.broadcast_in_dim %0, dims = [] : (tensor<f32>) -> tensor<1024x128xf32> -/
def s_main_call10_call0_v1 : FVec F S1024x128 .f32 :=
  (broadcastInDim S1024x128 ![] bcast_S_S1024x128) (s_main_call10_call0_v0 (F := F))

/-- the value of %2 = stablehlo.select %arg0, %1, %arg2 : tensor<1024x128xi1>, tensor<1024x128xf32> -/
def s_main_call10_v4 (X : FVec F S1024x128 .f32) (ADJ : IVec S1024x1024 32) (W : FVec F S128x128 .f32) (A : FVec F S256x1 .f32) : FVec F S1024x128 .f32 :=
  select (s_main_call10_v3 (F := F) X ADJ W A) (s_main_call10_call0_v1 (F := F)) (s_main_v91 (F := F) X ADJ W A)

/-- the value of %5 = stablehlo.exponential_minus_one %4 : tensor<1024x128xf32> -/
def s_main_call10_v5 (X : FVec F S1024x128 .f32) (ADJ : IVec S1024x1024 32) (W : FVec F S128x128 .f32) (A : FVec F S256x1 .f32) : FVec F S1024x128 .f32 :=
  Host.expm1 (s_main_call10_v4 (F := F) X ADJ W A)

/-- the value of %cst_2 = stablehlo.constant dense<1.000000e+00> : tensor<f32> -/
def s_main_call10_cst_2 : FVec F S_ .f32 :=
  constant (F := F) S_ .f32 0x3F800000#32

/-- the value of %6 = stablehlo.broadcast_in_dim %cst_2, dims = [] : (tensor<f32>) -> tensor<1024x128xf32> -/
def s_main_call10_v6 : FVec F S1024x128 .f32 :=
  (broadcastInDim S1024x128 ![] bcast_S_S1024x128) (s_main_call10_cst_2 (F := F))

/-- the value of %7 = stablehlo.multiply %6, %5 : tensor<1024x128xf32> -/
def s_main_call10_v7 (X : FVec F S1024x128 .f32) (ADJ : IVec S1024x1024 32) (W : FVec F S128x128 .f32) (A : FVec F S256x1 .f32) : FVec F S1024x128 .f32 :=
  mulf (s_main_call10_v6 (F := F)) (s_main_call10_v5 (F := F) X ADJ W A)

/-- the value of %0 = stablehlo.select %arg0, %arg1, %arg2 : tensor<1024x128xi1>, tensor<1024x128xf32> -/
def s_main_v92 (X : FVec F S1024x128 .f32) (ADJ : IVec S1024x1024 32) (W : FVec F S128x128 .f32) (A : FVec F S256x1 .f32) : FVec F S1024x128 .f32 :=
  select (s_main_call10_v1 (F := F) X ADJ W A) (s_main_v91 (F := F) X ADJ W A) (s_main_call10_v7 (F := F) X ADJ W A)

end Cert.ReferenceIdeal.Stage

end
-- ==== Proof.RefAfter.lean ====
/-
  What the reference's result holds after its 222 operations, read six windows at a time: after a window every value a later
  window still reads is its stage, a function of the four arguments alone.
-/
import proofs.«147569_g13718125543874_cont_sun_m_270_16_alg».proof.Proof.RefOpsPlain
import proofs.«147569_g13718125543874_cont_sun_m_270_16_alg».proof.Proof.RefStages
import Idealize.ShloMosaic.Lib.Pipeline.Frame

noncomputable section

namespace Cert.ReferenceIdeal.After

open Cert.ReferenceIdeal Cert.ReferenceIdeal.Gen Cert.ReferenceIdeal.Stage
open Idealize.ShloMosaic Idealize.ShloMosaic.TcCoe Idealize.SL.Sem Idealize.ShloMosaic.StableHlo

variable {F : FTy → Type} [FloatOps F]

attribute [local irreducible] Host.reduceWindow Host.scatter Host.scatterAdd Host.gather Host.reduce concatenate transpose shapeCast iotaInDim broadcastInDim extractStridedSlice
set_option maxRecDepth 8192
set_option maxHeartbeats 2000000

abbrev aX (V0 : Valuation τ sig (Elt F)) : FVec F S1024x128 .f32 := V0 (Proc.devRef .tc main_arg0)
abbrev aADJ (V0 : Valuation τ sig (Elt F)) : IVec S1024x1024 32 := V0 (Proc.devRef .tc main_arg1)
abbrev aW (V0 : Valuation τ sig (Elt F)) : FVec F S128x128 .f32 := V0 (Proc.devRef .tc main_arg2)
abbrev aA (V0 : Valuation τ sig (Elt F)) : FVec F S256x1 .f32 := V0 (Proc.devRef .tc main_arg3)

def val1 (V0 : Valuation τ sig (Elt F)) : Valuation τ sig (Elt F) := after (OpsPlain.ops0 (F := F)) V0

theorem val1_main_v1 (V0 : Valuation τ sig (Elt F)) :
    val1 V0 (no_index (Proc.devRef .tc main_v1)) = s_main_v1 (aADJ V0) := by
  unfold val1
  simp only [OpsPlain.ops0]
  after_results_simp
  rfl

theorem val1_main_v13 (V0 : Valuation τ sig (Elt F)) :
    val1 V0 (no_index (Proc.devRef .tc main_v13)) = s_main_v13 (aADJ V0) := by
  unfold val1
  simp only [OpsPlain.ops0]
  after_results_simp
  rfl

theorem val1_main_call3_v1 (V0 : Valuation τ sig (Elt F)) :
    val1 V0 (no_index (Proc.devRef .tc main_call3_v1)) = s_main_call3_v1 (aADJ V0) := by
  unfold val1
  simp only [OpsPlain.ops0]
  after_results_simp
  rfl

theorem val1_main_call3_v5 (V0 : Valuation τ sig (Elt F)) :
    val1 V0 (no_index (Proc.devRef .tc main_call3_v5)) = s_main_call3_v5 (aADJ V0) := by
  unfold val1
  simp only [OpsPlain.ops0]
  after_results_simp
  rfl

theorem val1_main_call3_v7 (V0 : Valuation τ sig (Elt F)) :
    val1 V0 (no_index (Proc.devRef .tc main_call3_v7)) = s_main_call3_v7 (aADJ V0) := by
  unfold val1
  simp only [OpsPlain.ops0]
  after_results_simp
  rfl

theorem val1_main_arg0 (V0 : Valuation τ sig (Elt F)) :
    val1 V0 (no_index (Proc.devRef .tc main_arg0)) = aX V0 := by
  unfold val1
  simp only [OpsPlain.ops0]
  after_results_simp

theorem val1_main_arg2 (V0 : Valuation τ sig (Elt F)) :
    val1 V0 (no_index (Proc.devRef .tc main_arg2)) = aW V0 := by
  unfold val1
  simp only [OpsPlain.ops0]
  after_results_simp

theorem val1_main_arg3 (V0 : Valuation τ sig (Elt F)) :
    val1 V0 (no_index (Proc.devRef .tc main_arg3)) = aA V0 := by
  unfold val1
  simp only [OpsPlain.ops0]
  after_results_simp

def val2 (V0 : Valuation τ sig (Elt F)) : Valuation τ sig (Elt F) := after (OpsPlain.ops1 (F := F)) (val1 V0)

theorem val2_main_v15 (V0 : Valuation τ sig (Elt F)) :
    val2 V0 (no_index (Proc.devRef .tc main_v15)) = s_main_v15 (aADJ V0) := by
  unfold val2
  simp only [OpsPlain.ops1]
  after_results_simp
  try simp only [val1_main_v1, val1_main_v13, val1_main_call3_v1, val1_main_call3_v5, val1_main_call3_v7, val1_main_arg0, val1_main_arg2, val1_main_arg3]
  rfl

theorem val2_main_c_7 (V0 : Valuation τ sig (Elt F)) :
    val2 V0 (no_index (Proc.devRef .tc main_c_7)) = s_main_c_7 := by
  unfold val2
  simp only [OpsPlain.ops1]
  after_results_simp
  try simp only [val1_main_v1, val1_main_v13, val1_main_call3_v1, val1_main_call3_v5, val1_main_call3_v7, val1_main_arg0, val1_main_arg2, val1_main_arg3]
  rfl

theorem val2_main_call5_v1 (V0 : Valuation τ sig (Elt F)) :
    val2 V0 (no_index (Proc.devRef .tc main_call5_v1)) = s_main_call5_v1 (aADJ V0) := by
  unfold val2
  simp only [OpsPlain.ops1]
  after_results_simp
  try simp only [val1_main_v1, val1_main_v13, val1_main_call3_v1, val1_main_call3_v5, val1_main_call3_v7, val1_main_arg0, val1_main_arg2, val1_main_arg3]
  rfl

theorem val2_main_call5_v5 (V0 : Valuation τ sig (Elt F)) :
    val2 V0 (no_index (Proc.devRef .tc main_call5_v5)) = s_main_call5_v5 (aADJ V0) := by
  unfold val2
  simp only [OpsPlain.ops1]
  after_results_simp
  try simp only [val1_main_v1, val1_main_v13, val1_main_call3_v1, val1_main_call3_v5, val1_main_call3_v7, val1_main_arg0, val1_main_arg2, val1_main_arg3]
  rfl

theorem val2_main_v1 (V0 : Valuation τ sig (Elt F)) :
    val2 V0 (no_index (Proc.devRef .tc main_v1)) = s_main_v1 (aADJ V0) := by
  unfold val2
  simp only [OpsPlain.ops1]
  after_results_simp
  exact val1_main_v1 V0

theorem val2_main_v13 (V0 : Valuation τ sig (Elt F)) :
    val2 V0 (no_index (Proc.devRef .tc main_v13)) = s_main_v13 (aADJ V0) := by
  unfold val2
  simp only [OpsPlain.ops1]
  after_results_simp
  exact val1_main_v13 V0

theorem val2_main_arg0 (V0 : Valuation τ sig (Elt F)) :
    val2 V0 (no_index (Proc.devRef .tc main_arg0)) = aX V0 := by
  unfold val2
  simp only [OpsPlain.ops1]
  after_results_simp
  exact val1_main_arg0 V0

theorem val2_main_arg2 (V0 : Valuation τ sig (Elt F)) :
    val2 V0 (no_index (Proc.devRef .tc main_arg2)) = aW V0 := by
  unfold val2
  simp only [OpsPlain.ops1]
  after_results_simp
  exact val1_main_arg2 V0

theorem val2_main_arg3 (V0 : Valuation τ sig (Elt F)) :
    val2 V0 (no_index (Proc.devRef .tc main_arg3)) = aA V0 := by
  unfold val2
  simp only [OpsPlain.ops1]
  after_results_simp
  exact val1_main_arg3 V0

def val3 (V0 : Valuation τ sig (Elt F)) : Valuation τ sig (Elt F) := after (OpsPlain.ops2 (F := F)) (val2 V0)

theorem val3_main_v17 (V0 : Valuation τ sig (Elt F)) :
    val3 V0 (no_index (Proc.devRef .tc main_v17)) = s_main_v17 (aADJ V0) := by
  unfold val3
  simp only [OpsPlain.ops2]
  after_results_simp
  try simp only [val2_main_v15, val2_main_c_7, val2_main_call5_v1, val2_main_call5_v5, val2_main_v1, val2_main_v13, val2_main_arg0, val2_main_arg2, val2_main_arg3]
  rfl

theorem val3_main_v18 (V0 : Valuation τ sig (Elt F)) :
    val3 V0 (no_index (Proc.devRef .tc main_v18)) = s_main_v18 := by
  unfold val3
  simp only [OpsPlain.ops2]
  after_results_simp
  try simp only [val2_main_v15, val2_main_c_7, val2_main_call5_v1, val2_main_call5_v5, val2_main_v1, val2_main_v13, val2_main_arg0, val2_main_arg2, val2_main_arg3]
  rfl

theorem val3_main_v21 (V0 : Valuation τ sig (Elt F)) :
    val3 V0 (no_index (Proc.devRef .tc main_v21)) = s_main_v21 (aADJ V0) := by
  unfold val3
  simp only [OpsPlain.ops2]
  after_results_simp
  try simp only [val2_main_v15, val2_main_c_7, val2_main_call5_v1, val2_main_call5_v5, val2_main_v1, val2_main_v13, val2_main_arg0, val2_main_arg2, val2_main_arg3]
  rfl

theorem val3_main_v15 (V0 : Valuation τ sig (Elt F)) :
    val3 V0 (no_index (Proc.devRef .tc main_v15)) = s_main_v15 (aADJ V0) := by
  unfold val3
  simp only [OpsPlain.ops2]
  after_results_simp
  exact val2_main_v15 V0

theorem val3_main_arg0 (V0 : Valuation τ sig (Elt F)) :
    val3 V0 (no_index (Proc.devRef .tc main_arg0)) = aX V0 := by
  unfold val3
  simp only [OpsPlain.ops2]
  after_results_simp
  exact val2_main_arg0 V0

theorem val3_main_arg2 (V0 : Valuation τ sig (Elt F)) :
    val3 V0 (no_index (Proc.devRef .tc main_arg2)) = aW V0 := by
  unfold val3
  simp only [OpsPlain.ops2]
  after_results_simp
  exact val2_main_arg2 V0

theorem val3_main_arg3 (V0 : Valuation τ sig (Elt F)) :
    val3 V0 (no_index (Proc.devRef .tc main_arg3)) = aA V0 := by
  unfold val3
  simp only [OpsPlain.ops2]
  after_results_simp
  exact val2_main_arg3 V0

abbrev ops3a : List (HloOp τ sig (Elt F)) := (OpsPlain.ops3 (F := F)).take 11
abbrev ops3b : List (HloOp τ sig (Elt F)) := ((OpsPlain.ops3 (F := F)).drop 11).take 24
abbrev ops3c : List (HloOp τ sig (Elt F)) := (OpsPlain.ops3 (F := F)).drop 35

theorem ops3_eq : OpsPlain.ops3 (F := F) = ops3a (F := F) ++ ops3b (F := F) ++ ops3c (F := F) := rfl

def val4a (V0 : Valuation τ sig (Elt F)) : Valuation τ sig (Elt F) := after (ops3a (F := F)) (val3 V0)

theorem val4a_main_v25 (V0 : Valuation τ sig (Elt F)) :
    val4a V0 (no_index (Proc.devRef .tc main_v25)) = s_main_v25 (aADJ V0) := by
  unfold val4a
  simp only [ops3a, OpsPlain.ops3, List.take_succ_cons, List.take_zero, List.drop_succ_cons, List.drop_zero]
  after_results_simp
  try simp only [val3_main_v17, val3_main_v18, val3_main_v21, val3_main_v15, val3_main_arg0, val3_main_arg2, val3_main_arg3]
  rfl

theorem val4a_main_v26 (V0 : Valuation τ sig (Elt F)) :
    val4a V0 (no_index (Proc.devRef .tc main_v26)) = s_main_v26 (aADJ V0) := by
  unfold val4a
  simp only [ops3a, OpsPlain.ops3, List.take_succ_cons, List.take_zero, List.drop_succ_cons, List.drop_zero]
  after_results_simp
  try simp only [val3_main_v17, val3_main_v18, val3_main_v21, val3_main_v15, val3_main_arg0, val3_main_arg2, val3_main_arg3]
  rfl

theorem val4a_main_arg0 (V0 : Valuation τ sig (Elt F)) :
    val4a V0 (no_index (Proc.devRef .tc main_arg0)) = aX V0 := by
  unfold val4a
  simp only [ops3a, OpsPlain.ops3, List.take_succ_cons, List.take_zero, List.drop_succ_cons, List.drop_zero]
  after_results_simp
  exact val3_main_arg0 V0

theorem val4a_main_arg2 (V0 : Valuation τ sig (Elt F)) :
    val4a V0 (no_index (Proc.devRef .tc main_arg2)) = aW V0 := by
  unfold val4a
  simp only [ops3a, OpsPlain.ops3, List.take_succ_cons, List.take_zero, List.drop_succ_cons, List.drop_zero]
  after_results_simp
  exact val3_main_arg2 V0

theorem val4a_main_arg3 (V0 : Valuation τ sig (Elt F)) :
    val4a V0 (no_index (Proc.devRef .tc main_arg3)) = aA V0 := by
  unfold val4a
  simp only [ops3a, OpsPlain.ops3, List.take_succ_cons, List.take_zero, List.drop_succ_cons, List.drop_zero]
  after_results_simp
  exact val3_main_arg3 V0

def val4b (V0 : Valuation τ sig (Elt F)) : Valuation τ sig (Elt F) := after (ops3b (F := F)) (val4a V0)

theorem val4b_main_v27 (V0 : Valuation τ sig (Elt F)) :
    val4b V0 (no_index (Proc.devRef .tc main_v27)) = s_main_v27 (aADJ V0) := by
  unfold val4b
  simp only [ops3b, OpsPlain.ops3, List.take_succ_cons, List.take_zero, List.drop_succ_cons, List.drop_zero]
  after_results_simp
  try simp only [val4a_main_v25, val4a_main_v26, val4a_main_arg0, val4a_main_arg2, val4a_main_arg3]
  rw [val4a_main_v25 V0, val4a_main_v26 V0]
  rfl

theorem val4b_main_v37 (V0 : Valuation τ sig (Elt F)) :
    val4b V0 (no_index (Proc.devRef .tc main_v37)) = s_main_v37 (aX V0) (aADJ V0) (aW V0) := by
  unfold val4b
  simp only [ops3b, OpsPlain.ops3, List.take_succ_cons, List.take_zero, List.drop_succ_cons, List.drop_zero]
  after_results_simp
  try simp only [val4a_main_v25, val4a_main_v26, val4a_main_arg0, val4a_main_arg2, val4a_main_arg3]
  rw [val4a_main_v25 V0, val4a_main_v26 V0]
  rfl

theorem val4b_main_v46 (V0 : Valuation τ sig (Elt F)) :
    val4b V0 (no_index (Proc.devRef .tc main_v46)) = s_main_v46 (aX V0) (aADJ V0) (aW V0) := by
  unfold val4b
  simp only [ops3b, OpsPlain.ops3, List.take_succ_cons, List.take_zero, List.drop_succ_cons, List.drop_zero]
  after_results_simp
  try simp only [val4a_main_v25, val4a_main_v26, val4a_main_arg0, val4a_main_arg2, val4a_main_arg3]
  rw [val4a_main_v25 V0, val4a_main_v26 V0]
  rfl

theorem val4b_main_v28 (V0 : Valuation τ sig (Elt F)) :
    val4b V0 (no_index (Proc.devRef .tc main_v28)) = s_main_v28 (aX V0) (aW V0) := by
  unfold val4b
  simp only [ops3b, OpsPlain.ops3, List.take_succ_cons, List.take_zero, List.drop_succ_cons, List.drop_zero]
  after_results_simp
  try simp only [val4a_main_v25, val4a_main_v26, val4a_main_arg0, val4a_main_arg2, val4a_main_arg3]
  rfl

theorem val4b_main_arg3 (V0 : Valuation τ sig (Elt F)) :
    val4b V0 (no_index (Proc.devRef .tc main_arg3)) = aA V0 := by
  unfold val4b
  simp only [ops3b, OpsPlain.ops3, List.take_succ_cons, List.take_zero, List.drop_succ_cons, List.drop_zero]
  after_results_simp
  exact val4a_main_arg3 V0

def val4 (V0 : Valuation τ sig (Elt F)) : Valuation τ sig (Elt F) := after (ops3c (F := F)) (val4b V0)

theorem val4_main_v48 (V0 : Valuation τ sig (Elt F)) :
    val4 V0 (no_index (Proc.devRef .tc main_v48)) = s_main_v48 (aX V0) (aADJ V0) (aW V0) := by
  unfold val4
  simp only [ops3c, OpsPlain.ops3, List.take_succ_cons, List.take_zero, List.drop_succ_cons, List.drop_zero]
  after_results_simp
  rw [val4b_main_v37 V0, val4b_main_v46 V0]
  rfl

theorem val4_main_v27 (V0 : Valuation τ sig (Elt F)) :
    val4 V0 (no_index (Proc.devRef .tc main_v27)) = s_main_v27 (aADJ V0) := by
  unfold val4
  simp only [ops3c, OpsPlain.ops3, List.take_succ_cons, List.take_zero, List.drop_succ_cons, List.drop_zero]
  after_results_simp
  exact val4b_main_v27 V0

theorem val4_main_v28 (V0 : Valuation τ sig (Elt F)) :
    val4 V0 (no_index (Proc.devRef .tc main_v28)) = s_main_v28 (aX V0) (aW V0) := by
  unfold val4
  simp only [ops3c, OpsPlain.ops3, List.take_succ_cons, List.take_zero, List.drop_succ_cons, List.drop_zero]
  after_results_simp
  exact val4b_main_v28 V0

theorem val4_main_arg3 (V0 : Valuation τ sig (Elt F)) :
    val4 V0 (no_index (Proc.devRef .tc main_arg3)) = aA V0 := by
  unfold val4
  simp only [ops3c, OpsPlain.ops3, List.take_succ_cons, List.take_zero, List.drop_succ_cons, List.drop_zero]
  after_results_simp
  exact val4b_main_arg3 V0

def val5 (V0 : Valuation τ sig (Elt F)) : Valuation τ sig (Elt F) := after (OpsPlain.ops4 (F := F)) (val4 V0)

theorem val5_main_v65 (V0 : Valuation τ sig (Elt F)) :
    val5 V0 (no_index (Proc.devRef .tc main_v65)) = s_main_v65 (aX V0) (aADJ V0) (aW V0) (aA V0) := by
  unfold val5
  simp only [OpsPlain.ops4]
  after_results_simp
  try simp only [val4_main_v48, val4_main_v27, val4_main_v28, val4_main_arg3]
  rfl

theorem val5_main_v66 (V0 : Valuation τ sig (Elt F)) :
    val5 V0 (no_index (Proc.devRef .tc main_v66)) = s_main_v66 (F := F) := by
  unfold val5
  simp only [OpsPlain.ops4]
  after_results_simp
  try simp only [val4_main_v48, val4_main_v27, val4_main_v28, val4_main_arg3]
  rfl

theorem val5_main_v68 (V0 : Valuation τ sig (Elt F)) :
    val5 V0 (no_index (Proc.devRef .tc main_v68)) = s_main_v68 (aADJ V0) := by
  unfold val5
  simp only [OpsPlain.ops4]
  after_results_simp
  try simp only [val4_main_v48, val4_main_v27, val4_main_v28, val4_main_arg3]
  rfl

theorem val5_main_v69 (V0 : Valuation τ sig (Elt F)) :
    val5 V0 (no_index (Proc.devRef .tc main_v69)) = s_main_v69 (aX V0) (aADJ V0) (aW V0) (aA V0) := by
  unfold val5
  simp only [OpsPlain.ops4]
  after_results_simp
  try simp only [val4_main_v48, val4_main_v27, val4_main_v28, val4_main_arg3]
  rfl

theorem val5_main_v71 (V0 : Valuation τ sig (Elt F)) :
    val5 V0 (no_index (Proc.devRef .tc main_v71)) = s_main_v71 (aADJ V0) := by
  unfold val5
  simp only [OpsPlain.ops4]
  after_results_simp
  try simp only [val4_main_v48, val4_main_v27, val4_main_v28, val4_main_arg3]
  rfl

theorem val5_main_v73 (V0 : Valuation τ sig (Elt F)) :
    val5 V0 (no_index (Proc.devRef .tc main_v73)) = s_main_v73 (aADJ V0) := by
  unfold val5
  simp only [OpsPlain.ops4]
  after_results_simp
  try simp only [val4_main_v48, val4_main_v27, val4_main_v28, val4_main_arg3]
  rfl

theorem val5_main_v28 (V0 : Valuation τ sig (Elt F)) :
    val5 V0 (no_index (Proc.devRef .tc main_v28)) = s_main_v28 (aX V0) (aW V0) := by
  unfold val5
  simp only [OpsPlain.ops4]
  after_results_simp
  exact val4_main_v28 V0

def val6 (V0 : Valuation τ sig (Elt F)) : Valuation τ sig (Elt F) := after (OpsPlain.ops5 (F := F)) (val5 V0)

theorem val6_main_v92 (V0 : Valuation τ sig (Elt F)) :
    val6 V0 (no_index (Proc.devRef .tc main_v92)) = s_main_v92 (aX V0) (aADJ V0) (aW V0) (aA V0) := by
  unfold val6
  simp only [OpsPlain.ops5]
  after_results_simp
  try simp only [val5_main_v65, val5_main_v66, val5_main_v68, val5_main_v69, val5_main_v71, val5_main_v73, val5_main_v28]
  rfl

theorem after_plain (V : Valuation τ sig (Elt F)) : after (OpsPlain.opsAll (F := F)) V = val6 V := by
  unfold val6 val5 val4 val4b val4a val3 val2 val1 OpsPlain.opsAll
  rw [StableHlo.after_append, StableHlo.after_append, StableHlo.after_append, StableHlo.after_append, StableHlo.after_append,
    ops3_eq, StableHlo.after_append, StableHlo.after_append]

-- The windows in a row are the whole line, and the last one leaves the result at its stage.
theorem after_v92 (V : Valuation τ sig (Elt F)) :
    after (OpsPlain.opsAll (F := F)) V (main_v92 : DevRef τ sig)
      = s_main_v92 (F := F) (V (main_arg0 : DevRef τ sig)) (V (main_arg1 : DevRef τ sig))
          (V (main_arg2 : DevRef τ sig)) (V (main_arg3 : DevRef τ sig)) := by
  rw [after_plain]
  exact val6_main_v92 V

end Cert.ReferenceIdeal.After

end
-- ==== Proof.RefRun.lean ====
/-
  The reference's run. Its main function is the straight line of its 222 operations, so every execution ends with
  the result at the last stage of the four arguments and the arguments as they were.
-/
import proofs.«147569_g13718125543874_cont_sun_m_270_16_alg».proof.Proof.RefAfter
import Idealize.ShloMosaic.Lib.StableHlo.Run

noncomputable section

namespace Cert.ReferenceIdeal.Run

open Cert.ReferenceIdeal Cert.ReferenceIdeal.Gen Cert.ReferenceIdeal.OpsPlain Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

-- The references the operations write, in order.
abbrev W : List (Ref sig .tc) :=
  [
    main_c, main_v0, main_v1, main_call0_v0, main_call0_v1, main_call0_call0_c, main_call0_call0_v0, main_v2, main_c_0, main_v3,
    main_c_1, main_call1_v0, main_call1_v1, main_v4, main_c_2, main_v5, main_v6, main_c_3, main_v7, main_v8,
    main_v9, main_v10, main_c_4, main_v11, main_v12, main_call2_call0_c, main_call2_call0_v0, main_v13, main_c_5, main_call3_v0,
    main_call3_v1, main_call3_v2, main_call3_v3, main_call3_v4, main_call3_v5, main_call3_v6, main_call3_v7, main_call3_c, main_call3_v8, main_call3_v9,
    main_call3_v10, main_call3_c_0, main_call3_v11, main_call3_v12, main_v14, main_c_6, main_call4_v0, main_call4_c, main_call4_v1, main_call4_c_0,
    main_call4_v2, main_call4_v3, main_call4_v4, main_call4_c_1, main_call4_v5, main_call4_v6, main_call4_c_2, main_call4_v7, main_call4_v8, main_call4_c_3,
    main_call4_v9, main_call4_v10, main_call4_v11, main_call4_v12, main_call4_v13, main_call4_v14, main_v15, main_c_7, main_call5_v0, main_call5_v1,
    main_call5_v2, main_call5_v3, main_call5_v4, main_call5_v5, main_call5_v6, main_call5_v7, main_call5_c, main_call5_v8, main_call5_v9, main_call5_v10,
    main_call5_c_0, main_call5_v11, main_call5_v12, main_v16, main_c_8, main_call6_v0, main_call6_c, main_call6_v1, main_call6_c_0, main_call6_v2,
    main_call6_v3, main_call6_v4, main_call6_c_1, main_call6_v5, main_call6_v6, main_call6_c_2, main_call6_v7, main_call6_v8, main_call6_c_3, main_call6_v9,
    main_call6_v10, main_call6_v11, main_call6_v12, main_call6_v13, main_call6_v14, main_v17, main_v18, main_v19, main_c_9, main_v20,
    main_v21, main_v22, main_c_10, main_call7_v0, main_call7_v1, main_v23, main_c_11, main_call8_v0, main_call8_v1, main_v24,
    main_v25, main_v26, main_v27, main_v28, main_v29, main_v30, main_c_12, main_v31, main_v32, main_c_13,
    main_v33, main_v34, main_v35, main_v36, main_v37, main_v38, main_v39, main_c_14, main_v40, main_v41,
    main_c_15, main_v42, main_v43, main_v44, main_v45, main_v46, main_v47, main_v48, main_v49, main_v50,
    main_v51, main_cst, main_call9_cst, main_call9_v0, main_call9_v1, main_call9_v2, main_call9_v3, main_call9_v4, main_v52, main_v53,
    main_v54, main_cst_16, main_v55, main_v56, main_v57, main_v58, main_c_17, main_v59, main_v60, main_c_18,
    main_v61, main_v62, main_v63, main_v64, main_v65, main_cst_19, main_v66, main_v67, main_v68, main_v69,
    main_v70, main_v71, main_c_20, main_v72, main_v73, main_c_21, main_v74, main_v75, main_v76, main_v77,
    main_v78, main_v79, main_v80, main_c_22, main_v81, main_v82, main_c_23, main_v83, main_v84, main_v85,
    main_v86, main_v87, main_cst_24, main_v88, main_v89, main_v90, main_v91, main_call10_cst, main_call10_v0, main_call10_v1,
    main_call10_cst_0, main_call10_v2, main_call10_v3, main_call10_cst_1, main_call10_call0_v0, main_call10_call0_v1, main_call10_v4, main_call10_v5, main_call10_cst_2, main_call10_v6,
    main_call10_v7, main_v92 ]

theorem sub_of_mem {y : Ref sig .tc} {s : Finset (DevRef τ sig)} (hs : s = {Proc.devRef .tc y}) (hy : y ∈ W) :
    s ⊆ (W.map (Proc.devRef (τ := τ) .tc)).toFinset := by
  rw [hs, Finset.singleton_subset_iff, List.mem_toFinset]; exact List.mem_map_of_mem hy

theorem opsAll_sub : (opsAll : List (HloOp τ sig (Elt F))).Forall fun op => op.bufs ⊆ tcRefs τ sig := by
  simp only [opsAll, ops0, ops1, ops2, ops3, ops4, ops5, List.cons_append, List.nil_append, List.Forall,
    nullary_bufs_sub, unary_bufs_sub, binary_bufs_sub, ternary_bufs_sub, reshape_bufs_sub, and_self]

theorem opsAll_fresh : (opsAll : List (HloOp τ sig (Elt F))).Forall fun op => op.fresh = ∅ := by
  simp only [opsAll, ops0, ops1, ops2, ops3, ops4, ops5, List.cons_append, List.nil_append, List.Forall]
  and_intros <;> rfl

-- Each operation writes its one result reference, which is in the list.
theorem opsAll_writes : (opsAll : List (HloOp τ sig (Elt F))).Forall fun op =>
    op.writes ⊆ (W.map (Proc.devRef (τ := τ) .tc)).toFinset := by
  simp only [opsAll, ops0, ops1, ops2, ops3, ops4, ops5, List.cons_append, List.nil_append, List.Forall]
  and_intros <;> exact sub_of_mem rfl (by decide)

-- A reference no operation writes, an argument for one, is left as it was.
theorem after_keep (V : Valuation τ sig (Elt F)) {r : Ref sig .tc} (h : r ∉ W) :
    after (opsAll (F := F)) V (Proc.devRef .tc r) = V (Proc.devRef .tc r) :=
  after_of_writes_sub _ _ opsAll_writes h

attribute [local irreducible] Host.reduceWindow Host.scatter Host.scatterAdd Host.gather Host.reduce

set_option maxRecDepth 8192 in
set_option maxHeartbeats 4000000 in
theorem part0_eq (c : Dev nD) :
    main_part0 (F := F) c = seq (ops0 (F := F) ++ ops1 (F := F) ++ ops2 (F := F) ++ (ops3 (F := F)).take 31) := rfl

set_option maxRecDepth 8192 in
set_option maxHeartbeats 4000000 in
theorem part1_eq (c : Dev nD) :
    main_part1 (F := F) c = seq ((ops3 (F := F)).drop 31 ++ ops4 (F := F) ++ ops5 (F := F)) := rfl

theorem part2_eq (c : Dev nD) : main_part2 (F := F) c = pure ⟨⟩ := rfl

theorem opsAll_split :
    opsAll (F := F) = (ops0 (F := F) ++ ops1 (F := F) ++ ops2 (F := F) ++ (ops3 (F := F)).take 31)
      ++ ((ops3 (F := F)).drop 31 ++ ops4 (F := F) ++ ops5 (F := F)) := by
  rw [show opsAll (F := F) = ops0 (F := F) ++ ops1 (F := F) ++ ops2 (F := F)
        ++ ((ops3 (F := F)).take 31 ++ (ops3 (F := F)).drop 31) ++ ops4 (F := F) ++ ops5 (F := F) from by
      rw [List.take_append_drop]]
  simp only [List.append_assoc]

-- The main function runs its two parts in order, and each part is its stretch of the line.
theorem main_eq (c : Dev nD) : main (F := F) c = seq (opsAll (F := F)) := by
  rw [opsAll_split, seq_append, ← part0_eq c, ← part1_eq c]
  show (main_part0 c >>= fun _ => main_part1 c >>= fun _ => main_part2 c) = _
  rw [part2_eq, bind_pure]

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v92) = Cert.ReferenceIdeal.Stage.s_main_v92 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v92).trans (Cert.ReferenceIdeal.After.after_v92 _),
      (h c main_arg0).trans (after_keep _ (by decide)), (h c main_arg1).trans (after_keep _ (by decide)),
      (h c main_arg2).trans (after_keep _ (by decide)), (h c main_arg3).trans (after_keep _ (by decide))⟩)
    (run_seq scopedRefs_eq scopedSems_eq defs main (fun _ => opsAll) main_eq (fun _ => opsAll_sub) m ρ
      (fun _ => List.forall_iff_forall_mem.1 opsAll_fresh))

end Cert.ReferenceIdeal.Run

end
-- ==== Proof.RefLogit.lean ====
/-
  The reference's weight of an edge, as a function of the hidden features at its two endpoints.
-/
import proofs.«147569_g13718125543874_cont_sun_m_270_16_alg».proof.Proof.RefStages
import proofs.«147569_g13718125543874_cont_sun_m_270_16_alg».proof.Proof.Spec
import Idealize.ShloMosaic.Lib.ValueIdx
import Idealize.ShloMosaic.Lib.ValueLayout
import Idealize.ShloMosaic.Lib.StackMember

noncomputable section

namespace Cert.ReferenceIdeal.Logit

open Idealize.ShloMosaic Idealize.ShloMosaic.ValueIdx Cert.ReferenceIdeal Cert.ReferenceIdeal.Stage

def clampI (v : BitVec 32) : Fin 1024 := ⟨min v.toInt.toNat 1023, by omega⟩

theorem clampI_ofNat (i : Fin 1024) : clampI (BitVec.ofNat 32 i.val) = i := by
  apply Fin.ext
  show min (BitVec.ofNat 32 i.val).toInt.toNat 1023 = i.val
  have hi := i.isLt
  have hm : i.val % 4294967296 = i.val := Nat.mod_eq_of_lt (by omega)
  have h : (BitVec.ofNat 32 i.val).toInt = (i.val : Int) := by
    rw [BitVec.toInt_eq_toNat_cond, BitVec.toNat_ofNat]
    show (if 2 * (i.val % 4294967296) < 4294967296 then ((i.val % 4294967296 : Nat) : Int) else _) = _
    rw [hm, if_pos (by omega)]
  rw [h]
  omega

section Rows
variable {α : Type}

abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    have hs : (rowsDims N C E wf).start (ix2 e k) idx 1 = 0 := by
      unfold GatherDims.start
      have h1 : (1 : Fin 2) ∉ (rowsDims N C E wf).startIndexMap := by
        show (1 : Fin 2) ∉ ([0] : List (Fin 2))
        decide
      rw [dif_neg h1]
    rw [hs, Nat.zero_add]
    rfl

end Rows

theorem gatherRows_apply (x : FVec Ideal S1024x128 .f32) (idx : IVec S1048576x1 32) (e : Fin 1048576) (k : Fin 128) :
    Host.gather gather_S1024x128_S1048576x1_S1048576x128_1_0_n_n_0_1_1128 x idx (ix2 e k)
      = x (ix2 (clampI (idx (ix2 e (0 : Fin 1)))) k) :=
  gather_rows_apply (N := 1024) (C := 128) (E := 1048576) (by omega)
    Gen.gather_S1024x128_S1048576x1_S1048576x128_1_0_n_n_0_1_1128_wf x idx e k

abbrev xOf (X : FVec Ideal S1024x128 .f32) : Fin 1024 → Fin 128 → EReal := fun i l => X (ix2 i l)
abbrev wOf (W : FVec Ideal S128x128 .f32) : Fin 128 → Fin 128 → EReal := fun l k => W (ix2 l k)
abbrev a1Of (A : FVec Ideal S256x1 .f32) : Fin 128 → EReal := fun k => A (ix2 (⟨k.val, by omega⟩ : Fin 256) (0 : Fin 1))
abbrev a2Of (A : FVec Ideal S256x1 .f32) : Fin 128 → EReal := fun k => A (ix2 (⟨128 + k.val, by omega⟩ : Fin 256) (0 : Fin 1))
abbrev hOf (X : FVec Ideal S1024x128 .f32) (W : FVec Ideal S128x128 .f32) : Fin 1024 → Fin 128 → EReal :=
  Cert.Gat.hid (xOf X) (wOf W)

theorem v28_apply (X : FVec Ideal S1024x128 .f32) (W : FVec Ideal S128x128 .f32) (i : Fin 1024) (k : Fin 128) :
    s_main_v28 (F := Ideal) X W (ix2 i k) = hOf X W i k := by
  unfold s_main_v28
  show Host.dotGeneral (DotDims.plain 1024 128 128) none X W (ix2 i k) = _
  rw [StackMember.dotGeneral_plain_apply]
  rfl

theorem v37_apply (X : FVec Ideal S1024x128 .f32) (ADJ : IVec S1024x1024 32) (W : FVec Ideal S128x128 .f32)
    (h36 : ∀ e : Fin 1048576, s_main_v36 ADJ (ix2 e (0 : Fin 1)) = s_main_v23 ADJ (ix1 e)) (e : Fin 1048576) (k : Fin 128) :
    s_main_v37 (F := Ideal) X ADJ W (ix2 e k) = hOf X W (clampI (s_main_v23 ADJ (ix1 e))) k := by
  refine (gatherRows_apply (s_main_v28 (F := Ideal) X W) (s_main_v36 ADJ) e k).trans ?_
  rw [h36 e, v28_apply]

theorem v46_apply (X : FVec Ideal S1024x128 .f32) (ADJ : IVec S1024x1024 32) (W : FVec Ideal S128x128 .f32)
    (h45 : ∀ e : Fin 1048576, s_main_v45 ADJ (ix2 e (0 : Fin 1)) = s_main_v24 ADJ (ix1 e)) (e : Fin 1048576) (k : Fin 128) :
    s_main_v46 (F := Ideal) X ADJ W (ix2 e k) = hOf X W (clampI (s_main_v24 ADJ (ix1 e))) k := by
  refine (gatherRows_apply (s_main_v28 (F := Ideal) X W) (s_main_v45 ADJ) e k).trans ?_
  rw [h45 e, v28_apply]

theorem v78_apply (X : FVec Ideal S1024x128 .f32) (ADJ : IVec S1024x1024 32) (W : FVec Ideal S128x128 .f32)
    (h77 : ∀ e : Fin 1048576, s_main_v77 ADJ (ix2 e (0 : Fin 1)) = s_main_v24 ADJ (ix1 e)) (e : Fin 1048576) (k : Fin 128) :
    s_main_v78 (F := Ideal) X ADJ W (ix2 e k) = hOf X W (clampI (s_main_v24 ADJ (ix1 e))) k := by
  refine (gatherRows_apply (s_main_v28 (F := Ideal) X W) (s_main_v77 ADJ) e k).trans ?_
  rw [h77 e, v28_apply]

theorem v47_left (X : FVec Ideal S1024x128 .f32) (ADJ : IVec S1024x1024 32) (W : FVec Ideal S128x128 .f32)
    (e : Fin 1048576) (k : Fin 128) :
    s_main_v47 (F := Ideal) X ADJ W (ix2 e (⟨k.val, by omega⟩ : Fin 256)) = s_main_v37 (F := Ideal) X ADJ W (ix2 e k) :=
  concatenate_pair_apply_left (t := S1048576x256) (s₁ := S1048576x128) (s₂ := S1048576x128) (1 : Fin S1048576x256.rank)
    (s_main_v37 (F := Ideal) X ADJ W) (s_main_v46 (F := Ideal) X ADJ W)
    Gen.concatenates_S1048576x128_S1048576x128_S1048576x256_d1
    (ix2 e (⟨k.val, by omega⟩ : Fin 256)) rfl (ix2 e k)
    (fun b => match b with | ⟨0, _⟩ => rfl | ⟨1, _⟩ => rfl)

theorem v47_right (X : FVec Ideal S1024x128 .f32) (ADJ : IVec S1024x1024 32) (W : FVec Ideal S128x128 .f32)
    (e : Fin 1048576) (k : Fin 128) :
    s_main_v47 (F := Ideal) X ADJ W (ix2 e (⟨128 + k.val, by omega⟩ : Fin 256)) = s_main_v46 (F := Ideal) X ADJ W (ix2 e k) :=
  concatenate_pair_apply_right (t := S1048576x256) (s₁ := S1048576x128) (s₂ := S1048576x128) (1 : Fin S1048576x256.rank)
    (s_main_v37 (F := Ideal) X ADJ W) (s_main_v46 (F := Ideal) X ADJ W)
    Gen.concatenates_S1048576x128_S1048576x128_S1048576x256_d1
    (ix2 e (⟨128 + k.val, by omega⟩ : Fin 256)) rfl rfl (ix2 e k)
    (fun b => match b with | ⟨0, _⟩ => fun _ => rfl | ⟨1, _⟩ => fun h => absurd rfl h)
    (Nat.add_comm _ _)

theorem v48_apply (X : FVec Ideal S1024x128 .f32) (ADJ : IVec S1024x1024 32) (W : FVec Ideal S128x128 .f32)
    (c : Fin 256) (e : Fin 1048576) :
    s_main_v48 (F := Ideal) X ADJ W (ix2 c e) = s_main_v47 (F := Ideal) X ADJ W (ix2 e c) :=
  transpose_ix2_apply _ _ c e

theorem v49_apply (A : FVec Ideal S256x1 .f32) (c : Fin 256) :
    s_main_v49 (F := Ideal) A (ix2 (0 : Fin 1) c) = A (ix2 c (0 : Fin 1)) :=
  transpose_ix2_apply _ _ (0 : Fin 1) c

theorem sum_halves {M : Type} [AddCommMonoid M] (n : Nat) (f : Fin (n + n) → M) :
    ∑ c, f c = ∑ k : Fin n, f ⟨k.val, by omega⟩ + ∑ k : Fin n, f ⟨n + k.val, by omega⟩ :=
  Fin.sum_univ_add f

theorem v50_apply (X : FVec Ideal S1024x128 .f32) (ADJ : IVec S1024x1024 32) (W : FVec Ideal S128x128 .f32)
    (A : FVec Ideal S256x1 .f32) (e : Fin 1048576) :
    s_main_v50 (F := Ideal) X ADJ W A (ix2 (0 : Fin 1) e)
      = ∑ c : Fin 256, A (ix2 c (0 : Fin 1)) * s_main_v47 (F := Ideal) X ADJ W (ix2 e c) := by
  unfold s_main_v50
  show Host.dotGeneral (DotDims.plain 1 256 1048576) none (s_main_v49 (F := Ideal) A) (s_main_v48 (F := Ideal) X ADJ W)
    (ix2 (0 : Fin 1) e) = _
  rw [StackMember.dotGeneral_plain_apply]
  refine Finset.sum_congr rfl fun c _ => ?_
  rw [v49_apply, v48_apply]

theorem v50_logit (X : FVec Ideal S1024x128 .f32) (ADJ : IVec S1024x1024 32) (W : FVec Ideal S128x128 .f32)
    (A : FVec Ideal S256x1 .f32)
    (h36 : ∀ e : Fin 1048576, s_main_v36 ADJ (ix2 e (0 : Fin 1)) = s_main_v23 ADJ (ix1 e))
    (h45 : ∀ e : Fin 1048576, s_main_v45 ADJ (ix2 e (0 : Fin 1)) = s_main_v24 ADJ (ix1 e)) (e : Fin 1048576) :
    s_main_v50 (F := Ideal) X ADJ W A (ix2 (0 : Fin 1) e)
      = Cert.Gat.s1 (hOf X W) (a1Of A) (clampI (s_main_v23 ADJ (ix1 e)))
          + Cert.Gat.s2 (hOf X W) (a2Of A) (clampI (s_main_v24 ADJ (ix1 e))) := by
  rw [v50_apply]
  refine (sum_halves 128 (fun c : Fin (128 + 128) =>
    A (ix2 c (0 : Fin 1)) * s_main_v47 (F := Ideal) X ADJ W (ix2 e c))).trans ?_
  congr 1
  · refine Finset.sum_congr rfl fun k _ => ?_
    show A (ix2 (⟨k.val, _⟩ : Fin 256) (0 : Fin 1)) * s_main_v47 (F := Ideal) X ADJ W (ix2 e (⟨k.val, _⟩ : Fin 256))
      = hOf X W (clampI (s_main_v23 ADJ (ix1 e))) k * a1Of A k
    rw [v47_left, v37_apply X ADJ W h36]
    exact mul_comm _ _
  · refine Finset.sum_congr rfl fun k _ => ?_
    show A (ix2 (⟨128 + k.val, _⟩ : Fin 256) (0 : Fin 1)) * s_main_v47 (F := Ideal) X ADJ W (ix2 e (⟨128 + k.val, _⟩ : Fin 256))
      = a2Of A k * hOf X W (clampI (s_main_v24 ADJ (ix1 e))) k
    rw [v47_right, v46_apply X ADJ W h45]

theorem v51_apply (X : FVec Ideal S1024x128 .f32) (ADJ : IVec S1024x1024 32) (W : FVec Ideal S128x128 .f32)
    (A : FVec Ideal S256x1 .f32) (e : Fin 1048576) :
    s_main_v51 (F := Ideal) X ADJ W A (ix1 e) = s_main_v50 (F := Ideal) X ADJ W A (ix2 (0 : Fin 1) e) :=
  shapeCast_1a_a_apply _ _ e

theorem v52_apply (X : FVec Ideal S1024x128 .f32) (ADJ : IVec S1024x1024 32) (W : FVec Ideal S128x128 .f32)
    (A : FVec Ideal S256x1 .f32) (e : Fin 1048576) :
    s_main_v52 (F := Ideal) X ADJ W A (ix1 e) = Cert.Gat.leaky (s_main_v51 (F := Ideal) X ADJ W A (ix1 e)) := by
  unfold s_main_v52
  rw [select_apply]
  generalize hv : s_main_v51 (F := Ideal) X ADJ W A (ix1 e) = v
  have hc : s_main_call9_v1 (F := Ideal) X ADJ W A (ix1 e) = BitVec.ofBool (decide ((0 : EReal) ≤ v)) := by
    unfold s_main_call9_v1
    rw [cmpf_apply, hv]
    have h0 : s_main_call9_v0 (F := Ideal) (ix1 e) = 0 := by
      unfold s_main_call9_v0 s_main_call9_cst
      rw [broadcastInDim_apply _ _ _ _ ix0 (fun a => a.elim0), constant_apply, Ideal.ofBits_zero_f32]
    rw [h0]
    rfl
  have hm : s_main_call9_v4 (F := Ideal) X ADJ W A (ix1 e) = Cert.Gat.slope * v := by
    have h3 : s_main_call9_v3 (F := Ideal) (ix1 e) = Cert.Gat.slope := by
      unfold s_main_call9_v3 s_main_call9_v2 s_main_cst
      rw [broadcastInDim_apply _ _ _ _ ix0 (fun a => a.elim0)]
      rfl
    unfold s_main_call9_v4
    rw [mulf_apply, hv, h3]
  rw [hc, hm]
  unfold Cert.Gat.leaky
  by_cases h : (0 : EReal) ≤ v
  · rw [decide_eq_true h, if_pos h]; exact select_one _ _
  · rw [decide_eq_false h, if_neg h]; exact select_zero _ _

theorem v54_apply (X : FVec Ideal S1024x128 .f32) (ADJ : IVec S1024x1024 32) (W : FVec Ideal S128x128 .f32)
    (A : FVec Ideal S256x1 .f32)
    (h36 : ∀ e : Fin 1048576, s_main_v36 ADJ (ix2 e (0 : Fin 1)) = s_main_v23 ADJ (ix1 e))
    (h45 : ∀ e : Fin 1048576, s_main_v45 ADJ (ix2 e (0 : Fin 1)) = s_main_v24 ADJ (ix1 e)) (e : Fin 1048576) :
    s_main_v54 (F := Ideal) X ADJ W A (ix1 e)
      = Cert.Gat.wgt (Cert.Gat.s1 (hOf X W) (a1Of A) (clampI (s_main_v23 ADJ (ix1 e)))
          + Cert.Gat.s2 (hOf X W) (a2Of A) (clampI (s_main_v24 ADJ (ix1 e)))) := by
  unfold s_main_v54 Host.exp s_main_v53 Host.negf
  show Ideal.exp (-(s_main_v52 (F := Ideal) X ADJ W A (ix1 e))) = _
  rw [v52_apply, v51_apply, v50_logit X ADJ W A h36 h45 e]
  unfold Cert.Gat.wgt
  rw [zero_sub]

end Cert.ReferenceIdeal.Logit

end
-- ==== Proof.Comb.lean ====
/-
  Counting in a list of 0/1 values: prefix counts, and the position of the k-th one.
-/
import Mathlib.Data.Nat.Count
import Mathlib.Algebra.BigOperators.Group.Finset.Basic

namespace Cert.Comb

variable (b : ℕ → Prop) [DecidablePred b] (M : ℕ)

def pos (k : ℕ) : ℕ := ((Finset.range M).filter fun p => Nat.count b (p + 1) ≤ k).card

theorem pos_le (k : ℕ) : pos b M k ≤ M := by
  unfold pos
  exact (Finset.card_filter_le _ _).trans_eq (Finset.card_range M)

theorem lt_pos_iff {k p : ℕ} (hp : p < M) : p < pos b M k ↔ Nat.count b (p + 1) ≤ k := by
  constructor
  · intro h
    by_contra hc
    have hsub : ((Finset.range M).filter fun q => Nat.count b (q + 1) ≤ k) ⊆ Finset.range p := by
      intro q hq
      rw [Finset.mem_filter] at hq
      rw [Finset.mem_range]
      by_contra hqp
      have hpq : p + 1 ≤ q + 1 := Nat.succ_le_succ (Nat.le_of_not_lt hqp)
      exact hc (le_trans (Nat.count_monotone b hpq) hq.2)
    have hcard := Finset.card_le_card hsub
    rw [Finset.card_range] at hcard
    exact absurd h (Nat.not_lt.mpr hcard)
  · intro h
    have hsub : Finset.range (p + 1) ⊆
        ((Finset.range M).filter fun q => Nat.count b (q + 1) ≤ k) := by
      intro q hq
      rw [Finset.mem_range] at hq
      rw [Finset.mem_filter, Finset.mem_range]
      have hqp : q + 1 ≤ p + 1 := hq
      exact ⟨lt_of_lt_of_le hq hp, le_trans (Nat.count_monotone b hqp) h⟩
    have hcard := Finset.card_le_card hsub
    rw [Finset.card_range] at hcard
    exact hcard

theorem pos_lt {k : ℕ} (hk : k < Nat.count b M) : pos b M k < M := by
  apply lt_of_le_of_ne (pos_le b M k)
  intro heq
  have hM : 0 < M := by
    rcases Nat.eq_zero_or_pos M with h0 | h0
    · subst h0
      simp at hk
    · exact h0
  obtain ⟨m, rfl⟩ : ∃ m, M = m + 1 := ⟨M - 1, by omega⟩
  have h1 : m < pos b (m + 1) k := by rw [heq]; exact Nat.lt_succ_self m
  have h2 := (lt_pos_iff b (m + 1) (Nat.lt_succ_self m)).mp h1
  exact absurd hk (Nat.not_lt.mpr h2)

theorem pos_bounds {k : ℕ} (hk : k < Nat.count b M) :
    Nat.count b (pos b M k) ≤ k ∧ k < Nat.count b (pos b M k + 1) := by
  have hlt := pos_lt b M hk
  constructor
  · rcases Nat.eq_zero_or_pos (pos b M k) with h0 | h0
    · rw [h0, Nat.count_zero]; exact Nat.zero_le k
    · obtain ⟨q, hq⟩ : ∃ q, pos b M k = q + 1 := ⟨pos b M k - 1, by omega⟩
      have hqM : q < M := by omega
      have hq' : q < pos b M k := by omega
      rw [hq]
      exact (lt_pos_iff b M hqM).mp hq'
  · by_contra hc
    exact lt_irrefl _ ((lt_pos_iff b M hlt).mpr (Nat.le_of_not_lt hc))

theorem pos_sat {k : ℕ} (hk : k < Nat.count b M) : b (pos b M k) := by
  obtain ⟨h1, h2⟩ := pos_bounds b M hk
  exact Nat.count_lt_count_succ_iff.mp (lt_of_le_of_lt h1 h2)

-- Below the k-th true position there are exactly k true positions.
theorem count_pos {k : ℕ} (hk : k < Nat.count b M) : Nat.count b (pos b M k) = k := by
  obtain ⟨h1, h2⟩ := pos_bounds b M hk
  have hs := Nat.count_succ_eq_succ_count (pos_sat b M hk)
  omega

theorem pos_count {p : ℕ} (hp : p < M) (hb : b p) :
    Nat.count b p < Nat.count b M ∧ pos b M (Nat.count b p) = p := by
  have hk : Nat.count b p < Nat.count b M := Nat.count_strict_mono hb hp
  exact ⟨hk, Nat.count_injective (pos_sat b M hk) hb (count_pos b M hk)⟩

theorem sum_pos {A : Type*} [AddCommMonoid A] (g : ℕ → A) :
    ∑ k ∈ Finset.range (Nat.count b M), g (pos b M k) = ∑ p ∈ (Finset.range M).filter b, g p := by
  refine Finset.sum_nbij' (pos b M) (Nat.count b) ?_ ?_ ?_ ?_ ?_
  · intro k hk
    rw [Finset.mem_range] at hk
    rw [Finset.mem_filter, Finset.mem_range]
    exact ⟨pos_lt b M hk, pos_sat b M hk⟩
  · intro p hp
    rw [Finset.mem_filter, Finset.mem_range] at hp
    rw [Finset.mem_range]
    exact (pos_count b M hp.1 hp.2).1
  · intro k hk
    rw [Finset.mem_range] at hk
    exact count_pos b M hk
  · intro p hp
    rw [Finset.mem_filter, Finset.mem_range] at hp
    exact (pos_count b M hp.1 hp.2).2
  · intro k _
    rfl

end Cert.Comb
-- ==== Proof.LibCumsum.lean ====
/-
  An inclusive prefix sum of words, written as a windowed sum, read at an index.
-/
import Idealize.ShloMosaic.PureOps.Contract
import Idealize.ShloMosaic.Lib.ValueIdx
import Mathlib.Data.BitVec
import Mathlib.Algebra.BigOperators.Fin

namespace Cert.LibCumsum
open Idealize.ShloMosaic Idealize.ShloMosaic.ValueIdx

theorem foldl_add_eq_sum {M ι : Type*} [AddCommMonoid M] (g : ι → M) (l : List ι) (v : M) :
    l.foldl (fun r k => r + g k) v = v + (l.map g).sum := by
  induction l generalizing v with
  | nil => simp
  | cons a l ih => simp [ih, add_assoc]

theorem numel_rank1 (n : ℕ) : (⟨1, ![n]⟩ : Shape).numel = n := by
  simp [Shape.numel]

theorem rowMajor_symm_rank1_val (n : ℕ) (k : Fin (⟨1, ![n]⟩ : Shape).numel) :
    (((⟨1, ![n]⟩ : Shape).rowMajor.symm k) 0).val = k.val := by
  have h := Shape.rowMajorPi_succ_val (![n] : Fin 1 → ℕ) ((⟨1, ![n]⟩ : Shape).rowMajor.symm k)
  have hk : Shape.rowMajorPi (![n] : Fin 1 → ℕ) ((⟨1, ![n]⟩ : Shape).rowMajor.symm k) = k :=
    (⟨1, ![n]⟩ : Shape).rowMajor.apply_symm_apply k
  rw [hk] at h
  have h2 := (Shape.rowMajorPi (fun a : Fin 0 => (![n] : Fin 1 → ℕ) a.succ)
    (fun a => ((⟨1, ![n]⟩ : Shape).rowMajor.symm k) a.succ)).isLt
  simp at h2 h
  omega

theorem sum_range_window {M : Type*} [AddCommMonoid M] (X : ℕ → M) (n j : ℕ) (hj : j < n) :
    ∑ k ∈ Finset.range n, (if n - 1 ≤ j + k then X (j + k - (n - 1)) else 0)
      = ∑ q ∈ Finset.range (j + 1), X q := by
  obtain ⟨m, rfl⟩ : ∃ m, n = m + (j + 1) := ⟨n - (j + 1), by omega⟩
  rw [Finset.sum_range_add, Finset.sum_eq_zero, zero_add]
  · refine Finset.sum_congr rfl fun i _ => ?_
    rw [if_pos (by omega)]
    congr 1
    omega
  · intro k hk
    rw [Finset.mem_range] at hk
    rw [if_neg (by omega)]

theorem sum_range_le {M : Type*} [AddCommMonoid M] (X : ℕ → M) (n j : ℕ) (hj : j < n) :
    ∑ q ∈ Finset.range n, (if q ≤ j then X q else 0) = ∑ q ∈ Finset.range (j + 1), X q := by
  obtain ⟨m, rfl⟩ : ∃ m, n = (j + 1) + m := ⟨n - (j + 1), by omega⟩
  rw [Finset.sum_range_add, add_comm, Finset.sum_eq_zero, zero_add]
  · refine Finset.sum_congr rfl fun i hi => ?_
    rw [Finset.mem_range] at hi
    rw [if_pos (by omega)]
  · intro k _
    rw [if_neg (by omega)]

theorem foldl_congr {α β : Type*} (f g : α → β → α) (h : ∀ r k, f r k = g r k) (a : α) (l : List β) :
    l.foldl f a = l.foldl g a := by
  rw [show f = g from funext fun r => funext fun k => h r k]

-- With n - 1 zeros in front, the window of n entries that ends at j holds exactly the entries up to j.
theorem cumsum_apply (n : ℕ) (hn : 0 < n) (x : IVec ⟨1, ![n]⟩ 32) (init : (⟨0, ![]⟩ : Shape).Idx → BitVec 32)
    (h0 : init ix0 = 0#32)
    (hW : (⟨1, ![n]⟩ : Shape).ReduceWindows (![n] : Fin 1 → ℕ) ![1] ![n - 1] ![0] ⟨1, ![n]⟩)
    (hu : 0 < (⟨0, ![]⟩ : Shape).numel) (j : Fin n) :
    Host.reduceWindow IntOp.addi (![n] : Fin 1 → ℕ) ![1] ![n - 1] ![0] x init hW hu (ix1 j)
      = BitVec.ofNat 32 (∑ q : Fin n, if q.val ≤ j.val then (x (ix1 q)).toNat else 0) := by
  unfold Host.reduceWindow
  simp only [eq_ix0 (Shape.Idx.first hu), h0]
  have hN := numel_rank1 n
  let X : ℕ → BitVec 32 := fun q => if h : q < n then x (ix1 ⟨q, h⟩) else 0
  refine (foldl_congr _ (fun r (k : Fin (⟨1, ![n]⟩ : Shape).numel) =>
      r + (if n - 1 ≤ j.val + k.val then X (j.val + k.val - (n - 1)) else 0)) ?_ _ _).trans ?_
  · intro r k
    show r + _ = r + _
    congr 1
    have hk := rowMajor_symm_rank1_val n k
    have hkn : k.val < n := lt_of_lt_of_eq k.isLt hN
    split
    · rename_i h
      have h' := h 0
      change n - 1 ≤ j.val * 1 + ((⟨1, ![n]⟩ : Shape).rowMajor.symm k 0).val ∧ _ at h'
      rw [hk] at h'
      have hlt : j.val + k.val - (n - 1) < n := by omega
      rw [if_pos (by omega)]
      show _ = dite _ _ _
      rw [dif_pos hlt]
      refine congrArg x ((eq_ix1 _).trans (congrArg ix1 (Fin.ext ?_)))
      show j.val * 1 + ((⟨1, ![n]⟩ : Shape).rowMajor.symm k 0).val - (n - 1) = j.val + k.val - (n - 1)
      rw [hk, Nat.mul_one]
    · rename_i h
      rw [if_neg]
      · rfl
      intro hc
      apply h
      intro a
      obtain rfl : a = 0 := Subsingleton.elim _ _
      show n - 1 ≤ j.val * 1 + ((⟨1, ![n]⟩ : Shape).rowMajor.symm k 0).val ∧
        j.val * 1 + ((⟨1, ![n]⟩ : Shape).rowMajor.symm k 0).val - (n - 1) < n
      rw [hk]
      omega
  · rw [foldl_add_eq_sum, ← Fin.sum_univ_def, show (0#32 : BitVec 32) = 0 from rfl, zero_add,
      Fin.sum_univ_eq_sum_range (fun m => if n - 1 ≤ j.val + m then X (j.val + m - (n - 1)) else 0), hN,
      sum_range_window X n j.val j.isLt, ← sum_range_le X n j.val j.isLt,
      ← Fin.sum_univ_eq_sum_range (fun q => if q ≤ j.val then X q else 0) n,
      ← BitVec.natCast_eq_ofNat, Nat.cast_sum]
    refine Finset.sum_congr rfl fun q _ => ?_
    by_cases hq : q.val ≤ j.val
    · rw [if_pos hq, if_pos hq]
      show dite _ _ _ = _
      rw [dif_pos q.isLt, BitVec.natCast_eq_ofNat, BitVec.ofNat_toNat, BitVec.setWidth_eq]
    · rw [if_neg hq, if_neg hq, Nat.cast_zero]

theorem toNat_ofNat_of_le (n s : ℕ) (hs : s ≤ n) (hn : n < 2 ^ 32) : (BitVec.ofNat 32 s).toNat = s := by
  rw [BitVec.toNat_ofNat]
  exact Nat.mod_eq_of_lt (by omega)

end Cert.LibCumsum
-- ==== Proof.LibScatter.lean ====
/-
  A scatter read at one index: the sum of the updates sent there.
-/
import Mathlib.Data.BitVec
import Mathlib.Algebra.BigOperators.Fin
import Idealize.ShloMosaic.Lib.ValueIdxRank1
import proofs.«147569_g13718125543874_cont_sun_m_270_16_alg».proof.ReferenceIdeal

open scoped BigOperators

namespace Cert.LibScatter

open Idealize.ShloMosaic Idealize.ShloMosaic.ValueIdx

section General
variable {α : Type} [AddCommMonoid α] {s si u : Shape} {w : Nat}

theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

section Row

abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

theorem rowDims_sKept : (rowDims R K C wf).sKept = [1] := rfl

theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

section Hist

abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem histDims_sKept : (histDims N K wf).sKept = [] := rfl

theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

section Sums

theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

section Records

open Cert.ReferenceIdeal

variable [Cert.ReferenceIdeal.Facts₀]

theorem row1_scatterAdd_apply {φ : FTy} (x : FVec Ideal S1024x1 φ) (idx : IVec S1048576x1 32)
    (upd : FVec Ideal S1048576x1 φ) (i : Fin 1024) (c : Fin 1) :
    Host.scatterAdd scatter_S1024x1_S1048576x1_S1048576x1_1_0_0_1 x idx upd (ix2 i c)
      = x (ix2 i c) + ∑ e : Fin 1048576, if (idx (ix2 e 0)).toInt = (i.val : ℤ) then upd (ix2 e c) else 0 :=
  rowDims_scatterAdd_apply Facts₀.scatter_S1024x1_S1048576x1_S1048576x1_1_0_0_1_wf x idx upd i c

-- At (i, c) a scatter-add leaves what was there plus every update whose index is i.
theorem row128_scatterAdd_apply {φ : FTy} (x : FVec Ideal S1024x128 φ) (idx : IVec S1048576x1 32)
    (upd : FVec Ideal S1048576x128 φ) (i : Fin 1024) (c : Fin 128) :
    Host.scatterAdd scatter_S1024x128_S1048576x1_S1048576x128_1_0_0_1 x idx upd (ix2 i c)
      = x (ix2 i c) + ∑ e : Fin 1048576, if (idx (ix2 e 0)).toInt = (i.val : ℤ) then upd (ix2 e c) else 0 :=
  rowDims_scatterAdd_apply Facts₀.scatter_S1024x128_S1048576x1_S1048576x128_1_0_0_1_wf x idx upd i c

theorem hist_scatter_apply (x : IVec S1048576 32) (idx : IVec S1048576x1 32) (upd : IVec S1048576 32) (v : Fin 1048576) :
    Host.scatter scatter_S1048576_S1048576x1_S1048576_n_0_0_1 IntOp.addi x idx upd (ix1 v)
      = x (ix1 v) + BitVec.ofNat 32 (∑ e : Fin 1048576, if (idx (ix2 e 0)).toInt = (v.val : ℤ) then (upd (ix1 e)).toNat else 0) :=
  histDims_scatter_apply Facts₀.scatter_S1048576_S1048576x1_S1048576_n_0_0_1_wf x idx upd v

end Records

end Cert.LibScatter
-- ==== Proof.LibWord.lean ====
/-
  Small non-negative 32-bit integers under addition, comparison and selection: they behave as the natural numbers they denote.
-/
import Mathlib.Data.BitVec
import Idealize.ShloMosaic.PureOps

namespace Cert.LibWord

open Idealize.ShloMosaic

theorem toNat_ofNat_lt {n : ℕ} (h : n < 2 ^ 32) : (BitVec.ofNat 32 n).toNat = n := by
  rw [BitVec.toNat_ofNat]; exact Nat.mod_eq_of_lt h

theorem msb_ofNat_lt {n : ℕ} (h : n < 2 ^ 31) : (BitVec.ofNat 32 n).msb = false := by
  rw [BitVec.msb_eq_false_iff_two_mul_lt, toNat_ofNat_lt (by omega)]; omega

theorem toInt_ofNat_lt {n : ℕ} (h : n < 2 ^ 31) : (BitVec.ofNat 32 n).toInt = (n : ℤ) := by
  rw [BitVec.toInt_eq_msb_cond, msb_ofNat_lt h, toNat_ofNat_lt (by omega)]; simp

theorem ofNat_inj_lt {a b : ℕ} (ha : a < 2 ^ 32) (hb : b < 2 ^ 32) : BitVec.ofNat 32 a = BitVec.ofNat 32 b ↔ a = b := by
  constructor
  · intro h
    have := congrArg BitVec.toNat h
    rwa [toNat_ofNat_lt ha, toNat_ofNat_lt hb] at this
  · rintro rfl; rfl

theorem sdiv_of_msb_false {x y : BitVec 32} (hx : x.msb = false) (hy : y.msb = false) : x.sdiv y = x / y := by
  rw [BitVec.sdiv_eq, hx, hy]; rfl

theorem srem_of_msb_false {x y : BitVec 32} (hx : x.msb = false) (hy : y.msb = false) : x.srem y = x % y := by
  rw [BitVec.srem_eq, hx, hy]

theorem not_sdivCorner (x : BitVec 32) {b : ℕ} (hb0 : 0 < b) (hb : b < 2 ^ 31) :
    ¬ IntOp.SDivCorner x (BitVec.ofNat 32 b) := by
  have hneg : (-1 : BitVec 32).toNat = 4294967295 := by decide
  rintro (h | ⟨-, h⟩)
  · have := congrArg BitVec.toNat h
    rw [toNat_ofNat_lt (by omega)] at this
    simp at this; omega
  · have := congrArg BitVec.toNat h
    rw [toNat_ofNat_lt (by omega), hneg] at this
    omega

theorem divsi_ofNat (u : ArithUnit) {a b : ℕ} (ha : a < 2 ^ 31) (hb0 : 0 < b) (hb : b < 2 ^ 31) :
    IntOp.divsi u (BitVec.ofNat 32 a) (BitVec.ofNat 32 b) = BitVec.ofNat 32 (a / b) := by
  unfold IntOp.divsi
  rw [if_neg (not_sdivCorner _ hb0 hb), sdiv_of_msb_false (msb_ofNat_lt ha) (msb_ofNat_lt hb)]
  apply BitVec.eq_of_toNat_eq
  have hq : a / b < 2 ^ 32 := lt_of_le_of_lt (Nat.div_le_self a b) (by omega)
  rw [BitVec.toNat_udiv, toNat_ofNat_lt (by omega), toNat_ofNat_lt (by omega), toNat_ofNat_lt hq]

theorem remsi_ofNat (u : ArithUnit) {a b : ℕ} (ha : a < 2 ^ 31) (hb0 : 0 < b) (hb : b < 2 ^ 31) :
    IntOp.remsi u (BitVec.ofNat 32 a) (BitVec.ofNat 32 b) = BitVec.ofNat 32 (a % b) := by
  unfold IntOp.remsi
  rw [if_neg (not_sdivCorner _ hb0 hb), srem_of_msb_false (msb_ofNat_lt ha) (msb_ofNat_lt hb)]
  apply BitVec.eq_of_toNat_eq
  have hr : a % b < 2 ^ 32 := lt_of_lt_of_le (Nat.mod_lt a hb0) (by omega)
  rw [BitVec.toNat_umod, toNat_ofNat_lt (by omega), toNat_ofNat_lt (by omega), toNat_ofNat_lt hr]

def sgn (x : BitVec 32) : BitVec 32 := if x = 0 then 0 else if x.msb then -1 else 1

theorem sgn_ofNat {n : ℕ} (h : n < 2 ^ 31) : sgn (BitVec.ofNat 32 n) = if n = 0 then 0#32 else 1#32 := by
  unfold sgn
  by_cases hn : n = 0
  · subst hn; simp
  · have : BitVec.ofNat 32 n ≠ 0 := fun h0 => hn ((ofNat_inj_lt (by omega) (by omega)).mp h0)
    rw [if_neg this, msb_ofNat_lt h, if_neg hn]; simp

theorem slt_zero_ofNat {n : ℕ} (h : n < 2 ^ 31) : IntOp.cmpi .slt (BitVec.ofNat 32 n) 0#32 = 0#1 := by
  have hn : ¬ ((n : ℤ) < 0) := by omega
  simp [IntOp.cmpi, BitVec.slt, toInt_ofNat_lt h, hn]

theorem maxsi_zero_ofNat {n : ℕ} (h : n < 2 ^ 31) : IntOp.maxsi 0#32 (BitVec.ofNat 32 n) = BitVec.ofNat 32 n := by
  unfold IntOp.maxsi
  rw [if_neg]
  simp [BitVec.slt, toInt_ofNat_lt h]

theorem sge_ofNat {a b : ℕ} (ha : a < 2 ^ 31) (hb : b < 2 ^ 31) :
    IntOp.cmpi .sge (BitVec.ofNat 32 a) (BitVec.ofNat 32 b) = BitVec.ofBool (decide (b ≤ a)) := by
  simp [IntOp.cmpi, BitVec.sle, toInt_ofNat_lt ha, toInt_ofNat_lt hb]

theorem eq_ofNat {a b : ℕ} (ha : a < 2 ^ 32) (hb : b < 2 ^ 32) :
    IntOp.cmpi .eq (BitVec.ofNat 32 a) (BitVec.ofNat 32 b) = BitVec.ofBool (decide (a = b)) := by
  by_cases h : a = b
  · subst h; simp [IntOp.cmpi]
  · have hne : BitVec.ofNat 32 a ≠ BitVec.ofNat 32 b := fun h' => h ((ofNat_inj_lt ha hb).mp h')
    show BitVec.ofBool (BitVec.ofNat 32 a == BitVec.ofNat 32 b) = BitVec.ofBool (decide (a = b))
    rw [beq_eq_false_iff_ne.mpr hne, decide_eq_false h]

theorem ne_ofNat {a b : ℕ} (ha : a < 2 ^ 32) (hb : b < 2 ^ 32) :
    IntOp.cmpi .ne (BitVec.ofNat 32 a) (BitVec.ofNat 32 b) = BitVec.ofBool (decide (a ≠ b)) := by
  by_cases h : a = b
  · subst h; simp [IntOp.cmpi]
  · have hne : BitVec.ofNat 32 a ≠ BitVec.ofNat 32 b := fun h' => h ((ofNat_inj_lt ha hb).mp h')
    show BitVec.ofBool (BitVec.ofNat 32 a != BitVec.ofNat 32 b) = BitVec.ofBool (decide (a ≠ b))
    rw [bne_iff_ne.mpr hne, decide_eq_true h]

theorem floordiv_ofNat (u : ArithUnit) {a b : ℕ} (ha : a < 2 ^ 31) (hb0 : 0 < b) (hb : b < 2 ^ 31) :
    Scalar.select
        (IntOp.andi (IntOp.cmpi .ne (sgn (BitVec.ofNat 32 a)) (sgn (BitVec.ofNat 32 b)))
          (IntOp.cmpi .ne (IntOp.remsi u (BitVec.ofNat 32 a) (BitVec.ofNat 32 b)) 0#32))
        (IntOp.subi (IntOp.divsi u (BitVec.ofNat 32 a) (BitVec.ofNat 32 b)) 1#32)
        (IntOp.divsi u (BitVec.ofNat 32 a) (BitVec.ofNat 32 b))
      = BitVec.ofNat 32 (a / b) := by
  rw [divsi_ofNat u ha hb0 hb, remsi_ofNat u ha hb0 hb, sgn_ofNat ha, sgn_ofNat hb, if_neg (Nat.pos_iff_ne_zero.mp hb0)]
  have hr : a % b < 2 ^ 32 := lt_of_lt_of_le (Nat.mod_lt a hb0) (by omega)
  rw [ne_ofNat hr (by omega : 0 < 2 ^ 32)]
  by_cases h0 : a = 0
  · subst h0
    simp [Scalar.select, IntOp.andi, IntOp.cmpi]
  · rw [if_neg h0]
    simp [Scalar.select, IntOp.andi, IntOp.cmpi]

theorem divisor_guard {b : ℕ} (hb0 : 0 < b) (hb : b < 2 ^ 32) :
    Scalar.select (IntOp.cmpi .eq (BitVec.ofNat 32 b) 0#32) 1#32 (BitVec.ofNat 32 b) = BitVec.ofNat 32 b := by
  rw [eq_ofNat hb (by omega : 0 < 2 ^ 32), decide_eq_false (Nat.pos_iff_ne_zero.mp hb0)]
  simp [Scalar.select]

theorem floormod_ofNat (u : ArithUnit) {a b : ℕ} (ha : a < 2 ^ 31) (hb0 : 0 < b) (hb : b < 2 ^ 31) :
    Scalar.select
        (IntOp.andi
          (IntOp.cmpi .ne (IntOp.cmpi .slt (IntOp.remsi u (BitVec.ofNat 32 a) (BitVec.ofNat 32 b)) 0#32)
            (IntOp.cmpi .slt (BitVec.ofNat 32 b) 0#32))
          (IntOp.cmpi .ne (IntOp.remsi u (BitVec.ofNat 32 a) (BitVec.ofNat 32 b)) 0#32))
        (IntOp.addi (IntOp.remsi u (BitVec.ofNat 32 a) (BitVec.ofNat 32 b)) (BitVec.ofNat 32 b))
        (IntOp.remsi u (BitVec.ofNat 32 a) (BitVec.ofNat 32 b))
      = BitVec.ofNat 32 (a % b) := by
  have hr : a % b < 2 ^ 31 := lt_trans (Nat.mod_lt a hb0) hb
  rw [remsi_ofNat u ha hb0 hb, slt_zero_ofNat hr, slt_zero_ofNat hb]
  simp [Scalar.select, IntOp.andi, IntOp.cmpi]

theorem fdiv1024 {n : ℕ} (hn : n ≤ 1048576) :
    Scalar.select
        (IntOp.andi (IntOp.cmpi .ne (sgn (BitVec.ofNat 32 n)) (sgn 1024#32))
          (IntOp.cmpi .ne (IntOp.remsi .host (BitVec.ofNat 32 n) 1024#32) 0#32))
        (IntOp.subi (IntOp.divsi .host (BitVec.ofNat 32 n) 1024#32) 1#32)
        (IntOp.divsi .host (BitVec.ofNat 32 n) 1024#32)
      = BitVec.ofNat 32 (n / 1024) :=
  floordiv_ofNat .host (by omega) (by omega) (by omega)

theorem fdiv1 {n : ℕ} (hn : n ≤ 1048576) :
    Scalar.select
        (IntOp.andi (IntOp.cmpi .ne (sgn (BitVec.ofNat 32 n)) (sgn 1#32))
          (IntOp.cmpi .ne (IntOp.remsi .host (BitVec.ofNat 32 n) 1#32) 0#32))
        (IntOp.subi (IntOp.divsi .host (BitVec.ofNat 32 n) 1#32) 1#32)
        (IntOp.divsi .host (BitVec.ofNat 32 n) 1#32)
      = BitVec.ofNat 32 n := by
  have h := floordiv_ofNat .host (a := n) (b := 1) (by omega) (by omega) (by omega)
  rwa [Nat.div_one] at h

theorem rem1024 {m : ℕ} (hm : m ≤ 1048576) :
    Scalar.select
        (IntOp.andi
          (IntOp.cmpi .ne
            (IntOp.cmpi .slt
              (IntOp.remsi .host (BitVec.ofNat 32 m) (Scalar.select (IntOp.cmpi .eq 1024#32 0#32) 1#32 1024#32)) 0#32)
            (IntOp.cmpi .slt (Scalar.select (IntOp.cmpi .eq 1024#32 0#32) 1#32 1024#32) 0#32))
          (IntOp.cmpi .ne
            (IntOp.remsi .host (BitVec.ofNat 32 m) (Scalar.select (IntOp.cmpi .eq 1024#32 0#32) 1#32 1024#32)) 0#32))
        (IntOp.addi
          (IntOp.remsi .host (BitVec.ofNat 32 m) (Scalar.select (IntOp.cmpi .eq 1024#32 0#32) 1#32 1024#32))
          (Scalar.select (IntOp.cmpi .eq 1024#32 0#32) 1#32 1024#32))
        (IntOp.remsi .host (BitVec.ofNat 32 m) (Scalar.select (IntOp.cmpi .eq 1024#32 0#32) 1#32 1024#32))
      = BitVec.ofNat 32 (m % 1024) := by
  rw [divisor_guard (b := 1024) (by omega) (by omega)]
  exact floormod_ofNat .host (by omega) (by omega) (by omega)

end Cert.LibWord
-- ==== Proof.RefTotal.lean ====
/-
  The number of non-zero adjacency entries, as the sum of the 0/1 mask over both axes.
-/
import proofs.«147569_g13718125543874_cont_sun_m_270_16_alg».proof.Proof.RefStages
import Idealize.ShloMosaic.Lib.ValueIdx
import Idealize.ShloMosaic.Lib.IndicatorCount
import Idealize.ShloMosaic.Lib.WordArith
import Mathlib.Data.Nat.Count

noncomputable section

namespace Cert.ReferenceIdeal.Total

open Idealize.ShloMosaic Idealize.ShloMosaic.ValueIdx Cert.ReferenceIdeal Cert.ReferenceIdeal.Stage

theorem v1_eq_one_iff (ADJ : IVec S1024x1024 32) (k : S1024x1024.Idx) : s_main_v1 ADJ k = 1#1 ↔ ADJ k ≠ 0#32 := by
  show BitVec.ofBool (ADJ k != 0#32) = 1#1 ↔ _
  rw [WordArith.ofBool_eq_one_iff]
  exact bne_iff_ne

theorem cell_eq (ADJ : IVec S1024x1024 32) (k : S1024x1024.Idx) (p : ℕ) (hp : p = (k 0).val * 1024 + (k 1).val)
    (h1 : p / 1024 < 1024) (h2 : p % 1024 < 1024) :
    ADJ (ix2 (⟨p / 1024, h1⟩ : Fin 1024) (⟨p % 1024, h2⟩ : Fin 1024)) = ADJ k := by
  have b1 : (k 1).val < 1024 := (k 1).isLt
  have e0 : (⟨p / 1024, h1⟩ : Fin 1024) = k 0 := Fin.ext (by show p / 1024 = (k 0).val; omega)
  have e1 : (⟨p % 1024, h2⟩ : Fin 1024) = k 1 := Fin.ext (by show p % 1024 = (k 1).val; omega)
  rw [e0, e1]
  exact congrArg ADJ (eq_ix2 k).symm

-- A sum of 0/1 values is the number of ones; the two axes summed in turn are the entries in row-major order.
theorem total_count (ADJ : IVec S1024x1024 32) (b : ℕ → Prop) [DecidablePred b]
    (hb : ∀ p : Fin 1048576, b p.val ↔ ADJ (ix2 (⟨p.val / 1024, by omega⟩ : Fin 1024) (⟨p.val % 1024, by omega⟩ : Fin 1024)) ≠ 0#32) :
    s_main_v20 ADJ ix0 = BitVec.ofNat 32 (Nat.count b 1048576) := by
  have hfold : s_main_v20 ADJ ix0
      = (Finset.univ : Finset S1024x1024.Idx).fold IntOp.addi (0#32) (fun k => (s_main_v1 ADJ k).setWidth 32) := by
    unfold s_main_v20
    refine (Host.reduce_eq_fold IntOp.addi (s_main_v19 ADJ) s_main_c_9 Facts₀.reducesTo_S1024x1024_S_d0_1
      Facts₀.h_S_ ix0).trans ?_
    rw [Finset.filter_true_of_mem (fun i _ => (eq_ix0 _).trans (eq_ix0 _).symm)]
    rfl
  rw [hfold, IndicatorCount.fold_addi_setWidth_eq_card, Nat.count_eq_card_filter_range]
  refine congrArg (BitVec.ofNat 32) ?_
  refine Finset.card_bij (fun k _ => (k 0).val * 1024 + (k 1).val) ?_ ?_ ?_
  · intro k hk
    rw [Finset.mem_filter] at hk
    have b0 : (k 0).val < 1024 := (k 0).isLt
    have b1 : (k 1).val < 1024 := (k 1).isLt
    have hlt : (k 0).val * 1024 + (k 1).val < 1048576 := by omega
    rw [Finset.mem_filter, Finset.mem_range]
    refine ⟨hlt, (hb ⟨_, hlt⟩).2 ?_⟩
    rw [cell_eq ADJ k _ rfl]
    exact (v1_eq_one_iff ADJ k).1 hk.2
  · intro k _ k' _ h
    have b0 : (k 0).val < 1024 := (k 0).isLt
    have b1 : (k 1).val < 1024 := (k 1).isLt
    have b0' : (k' 0).val < 1024 := (k' 0).isLt
    have b1' : (k' 1).val < 1024 := (k' 1).isLt
    have h' : (k 0).val * 1024 + (k 1).val = (k' 0).val * 1024 + (k' 1).val := h
    have e0 : k 0 = k' 0 := Fin.ext (by omega)
    have e1 : k 1 = k' 1 := Fin.ext (by omega)
    exact (eq_ix2 k).trans ((congrArg₂ (ix2 (n0 := 1024) (n1 := 1024)) e0 e1).trans (eq_ix2 k').symm)
  · intro p hp
    rw [Finset.mem_filter, Finset.mem_range] at hp
    obtain ⟨hlt, hbp⟩ := hp
    have hne := (hb ⟨p, hlt⟩).1 hbp
    refine ⟨ix2 (⟨p / 1024, by omega⟩ : Fin 1024) (⟨p % 1024, by omega⟩ : Fin 1024), ?_, ?_⟩
    · rw [Finset.mem_filter]
      exact ⟨Finset.mem_univ _, (v1_eq_one_iff ADJ _).2 hne⟩
    · show p / 1024 * 1024 + p % 1024 = p
      omega

end Cert.ReferenceIdeal.Total

end
-- ==== Proof.RefClosed.lean ====
/-
  The reference's edge list in closed form: entry k is the k-th non-zero entry of the adjacency matrix in row-major order,
  and entries past the last one carry the row 1024.
-/
import proofs.«147569_g13718125543874_cont_sun_m_270_16_alg».proof.Proof.RefStages
import proofs.«147569_g13718125543874_cont_sun_m_270_16_alg».proof.Proof.Comb
import proofs.«147569_g13718125543874_cont_sun_m_270_16_alg».proof.Proof.LibCumsum
import proofs.«147569_g13718125543874_cont_sun_m_270_16_alg».proof.Proof.LibScatter
import proofs.«147569_g13718125543874_cont_sun_m_270_16_alg».proof.Proof.LibWord
import proofs.«147569_g13718125543874_cont_sun_m_270_16_alg».proof.Proof.RefTotal
import Idealize.ShloMosaic.Lib.ValueIdx
import Idealize.ShloMosaic.Lib.IdealHost
import Idealize.ShloMosaic.Lib.Pipeline.Value

set_option maxRecDepth 16384

noncomputable section

namespace Cert.ReferenceIdeal.Closed

open Idealize.ShloMosaic Idealize.ShloMosaic.ValueIdx Cert.ReferenceIdeal Cert.ReferenceIdeal.Stage

def nzAt (ADJ : IVec S1024x1024 32) (p : ℕ) : Prop :=
  ∃ h : p < 1048576, ADJ (ix2 (⟨p / 1024, by omega⟩ : Fin 1024) (⟨p % 1024, by omega⟩ : Fin 1024)) ≠ 0#32

instance (ADJ : IVec S1024x1024 32) : DecidablePred (nzAt ADJ) := fun _ => by unfold nzAt; infer_instance

def nnz (ADJ : IVec S1024x1024 32) : ℕ := Nat.count (nzAt ADJ) 1048576

def posOf (ADJ : IVec S1024x1024 32) (e : ℕ) : ℕ := Cert.Comb.pos (nzAt ADJ) 1048576 e

theorem sum_fin_le_indicator (b : ℕ → Prop) [DecidablePred b] (n j : ℕ) (hj : j < n) :
    (∑ q : Fin n, if q.val ≤ j then (if b q.val then 1 else 0) else 0) = Nat.count b (j + 1) := by
  rw [Fin.sum_univ_eq_sum_range (fun q => if q ≤ j then (if b q then 1 else 0) else 0) n,
    Cert.LibCumsum.sum_range_le (fun q => if b q then 1 else 0) n j hj, Nat.count_eq_card_filter_range,
    Finset.card_filter]

theorem nzAt_iff (ADJ : IVec S1024x1024 32) (p : Fin 1048576) :
    nzAt ADJ p.val ↔ ADJ (ix2 (⟨p.val / 1024, by omega⟩ : Fin 1024) (⟨p.val % 1024, by omega⟩ : Fin 1024)) ≠ 0#32 :=
  ⟨fun ⟨_, h⟩ => h, fun h => ⟨p.isLt, h⟩⟩

theorem mask_apply (ADJ : IVec S1024x1024 32) (p : Fin 1048576) :
    s_main_call0_v1 ADJ (ix1 p) = if nzAt ADJ p.val then 1#32 else 0#32 := by
  have hsc : s_main_call0_v0 ADJ (ix1 p)
      = s_main_v1 ADJ (ix2 (⟨p.val / 1024, by omega⟩ : Fin 1024) (⟨p.val % 1024, by omega⟩ : Fin 1024)) := by
    unfold s_main_call0_v0
    refine shapeCast_apply _ _ _ _ ?_
    rw [Shape.rowMajor_val_two, Shape.rowMajor_val_one]
    show (p.val / 1024) * 1024 + p.val % 1024 = p.val
    omega
  show (s_main_call0_v0 ADJ (ix1 p)).setWidth 32 = _
  rw [hsc]
  show (IntOp.cmpi .ne (ADJ _) 0#32).setWidth 32 = _
  by_cases h : nzAt ADJ p.val
  · rw [if_pos h]
    have h' := (nzAt_iff ADJ p).mp h
    have hb : (ADJ (ix2 (⟨p.val / 1024, by omega⟩ : Fin 1024) (⟨p.val % 1024, by omega⟩ : Fin 1024)) != 0#32) = true := by
      simpa using h'
    show (BitVec.ofBool _).setWidth 32 = _
    rw [hb]
    rfl
  · rw [if_neg h]
    have h' : ADJ (ix2 (⟨p.val / 1024, by omega⟩ : Fin 1024) (⟨p.val % 1024, by omega⟩ : Fin 1024)) = 0#32 := by
      by_contra hc; exact h ((nzAt_iff ADJ p).mpr hc)
    rw [h']
    rfl

theorem mask_toNat (ADJ : IVec S1024x1024 32) (p : Fin 1048576) :
    (s_main_call0_v1 ADJ (ix1 p)).toNat = if nzAt ADJ p.val then 1 else 0 := by
  rw [mask_apply]; split <;> rfl

theorem v2_apply (ADJ : IVec S1024x1024 32) (j : Fin 1048576) :
    s_main_v2 ADJ (ix1 j) = BitVec.ofNat 32 (Nat.count (nzAt ADJ) (j.val + 1)) := by
  have h0 : s_main_call0_call0_v0 ix0 = 0#32 := rfl
  have hn : 0 < 1048576 := by norm_num
  have h := Cert.LibCumsum.cumsum_apply 1048576 hn (s_main_call0_v1 ADJ) s_main_call0_call0_v0 h0
    Facts₀.reduceWindows_S1048576_S1048576_w1048576s1p1048575_0 Facts₀.h_S_ j
  have hs : (∑ q : Fin 1048576, if q.val ≤ j.val then (s_main_call0_v1 ADJ (ix1 q)).toNat else 0)
      = Nat.count (nzAt ADJ) (j.val + 1) := by
    rw [← sum_fin_le_indicator (nzAt ADJ) 1048576 j.val j.isLt]
    refine Finset.sum_congr rfl fun q _ => ?_
    rw [mask_toNat]
  rw [hs] at h
  exact h

theorem sum_indicator_le (n : ℕ) (P : Fin n → Prop) [DecidablePred P] : (∑ p : Fin n, if P p then 1 else 0) ≤ n := by
  calc (∑ p : Fin n, if P p then 1 else 0) ≤ ∑ _p : Fin n, 1 := Finset.sum_le_sum fun p _ => by split <;> omega
    _ = n := by rw [Finset.sum_const, Finset.card_univ, Fintype.card_fin, smul_eq_mul, mul_one]

theorem sum_fiber_le (c : ℕ → ℕ) (n e : ℕ) (he : e < n) :
    (∑ q : Fin n, if q.val ≤ e then (∑ p : Fin n, if c p.val = q.val then 1 else 0) else 0)
      = ((Finset.range n).filter fun p => c p ≤ e).card := by
  have hin : ∀ q : ℕ, (∑ p : Fin n, if c p.val = q then 1 else 0) = ∑ p ∈ Finset.range n, if c p = q then 1 else 0 :=
    fun q => Fin.sum_univ_eq_sum_range (fun p => if c p = q then 1 else 0) n
  rw [Fin.sum_univ_eq_sum_range (fun q => if q ≤ e then (∑ p : Fin n, if c p.val = q then 1 else 0) else 0) n,
    Cert.LibCumsum.sum_range_le (fun q => ∑ p : Fin n, if c p.val = q then 1 else 0) n e he]
  simp only [hin]
  rw [Finset.sum_comm, Finset.card_filter]
  refine Finset.sum_congr rfl fun p _ => ?_
  rw [Finset.sum_ite_eq]
  simp only [Finset.mem_range, Nat.lt_succ_iff]

theorem count_lt (ADJ : IVec S1024x1024 32) (j : Fin 1048576) : Nat.count (nzAt ADJ) (j.val + 1) < 2 ^ 31 :=
  lt_of_le_of_lt (Nat.count_le _) (by have := j.isLt; omega)

theorem v9_apply (ADJ : IVec S1024x1024 32) (j : Fin 1048576) :
    s_main_v9 ADJ (ix1 j) = BitVec.ofNat 32 (Nat.count (nzAt ADJ) (j.val + 1)) := by
  have hc := count_lt ADJ j
  have h4 : s_main_v4 ADJ (ix1 j) = BitVec.ofNat 32 (Nat.count (nzAt ADJ) (j.val + 1)) := by
    show IntOp.maxsi (0#32) (s_main_v2 ADJ (ix1 j)) = _
    rw [v2_apply, Cert.LibWord.maxsi_zero_ofNat hc]
  show Scalar.select (IntOp.cmpi .slt (s_main_v4 ADJ (ix1 j)) 0#32) (s_main_v8 ADJ (ix1 j)) (s_main_v4 ADJ (ix1 j)) = _
  rw [h4, Cert.LibWord.slt_zero_ofNat hc, select_zero]

theorem v10_apply (ADJ : IVec S1024x1024 32) (e : Fin 1048576) :
    s_main_v10 ADJ (ix2 e (0 : Fin 1)) = BitVec.ofNat 32 (Nat.count (nzAt ADJ) (e.val + 1)) := by
  unfold s_main_v10
  rw [broadcastInDim_apply _ _ _ _ (ix1 e) (fun a => match a with | ⟨0, _⟩ => rfl)]
  exact v9_apply ADJ e

theorem v12_apply (ADJ : IVec S1024x1024 32) (v : Fin 1048576) :
    s_main_v12 ADJ (ix1 v)
      = BitVec.ofNat 32 (∑ e : Fin 1048576, if Nat.count (nzAt ADJ) (e.val + 1) = v.val then 1 else 0) := by
  show Host.scatter scatter_S1048576_S1048576x1_S1048576_n_0_0_1 IntOp.addi s_main_v3 (s_main_v10 ADJ) s_main_v11 (ix1 v) = _
  rw [Cert.LibScatter.hist_scatter_apply]
  have h3 : s_main_v3 (ix1 v) = 0#32 := rfl
  rw [h3, BitVec.zero_add]
  refine congrArg (BitVec.ofNat 32) (Finset.sum_congr rfl fun e _ => ?_)
  have h11 : (s_main_v11 (ix1 e)).toNat = 1 := rfl
  rw [v10_apply, Cert.LibWord.toInt_ofNat_lt (count_lt ADJ e), h11]
  simp only [Nat.cast_inj]

theorem v12_toNat (ADJ : IVec S1024x1024 32) (q : Fin 1048576) :
    (s_main_v12 ADJ (ix1 q)).toNat = ∑ p : Fin 1048576, if Nat.count (nzAt ADJ) (p.val + 1) = q.val then 1 else 0 := by
  rw [v12_apply]
  exact Cert.LibCumsum.toNat_ofNat_of_le 1048576 _ (sum_indicator_le 1048576 _) (by norm_num)

theorem v13_apply (ADJ : IVec S1024x1024 32) (e : Fin 1048576) :
    s_main_v13 ADJ (ix1 e) = BitVec.ofNat 32 (posOf ADJ e.val) := by
  have h0 : s_main_call2_call0_v0 ix0 = 0#32 := rfl
  have hn : 0 < 1048576 := by norm_num
  have h := Cert.LibCumsum.cumsum_apply 1048576 hn (s_main_v12 ADJ) s_main_call2_call0_v0 h0
    Facts₀.reduceWindows_S1048576_S1048576_w1048576s1p1048575_0 Facts₀.h_S_ e
  have hs : (∑ q : Fin 1048576, if q.val ≤ e.val then (s_main_v12 ADJ (ix1 q)).toNat else 0) = posOf ADJ e.val := by
    unfold posOf Cert.Comb.pos
    refine Eq.trans (Finset.sum_congr rfl fun q _ => ?_)
      (sum_fiber_le (fun p => Nat.count (nzAt ADJ) (p + 1)) 1048576 e.val e.isLt)
    rw [v12_toNat]
  rw [hs] at h
  exact h

theorem posOf_le (ADJ : IVec S1024x1024 32) (e : ℕ) : posOf ADJ e ≤ 1048576 := Cert.Comb.pos_le _ _ _

theorem v14_apply (ADJ : IVec S1024x1024 32) (e : Fin 1048576) :
    s_main_v14 ADJ (ix1 e) = BitVec.ofNat 32 (posOf ADJ e.val / 1024) := by
  show Scalar.select
        (IntOp.andi (IntOp.cmpi .ne (Cert.LibWord.sgn (s_main_v13 ADJ (ix1 e))) (Cert.LibWord.sgn 1024#32))
          (IntOp.cmpi .ne (IntOp.remsi .host (s_main_v13 ADJ (ix1 e)) 1024#32) 0#32))
        (IntOp.subi (IntOp.divsi .host (s_main_v13 ADJ (ix1 e)) 1024#32) 1#32)
        (IntOp.divsi .host (s_main_v13 ADJ (ix1 e)) 1024#32) = _
  rw [v13_apply]
  exact Cert.LibWord.fdiv1024 (posOf_le ADJ e.val)

theorem v15_apply (ADJ : IVec S1024x1024 32) (e : Fin 1048576) :
    s_main_v15 ADJ (ix1 e) = BitVec.ofNat 32 (posOf ADJ e.val / 1024 % 1024) := by
  show Scalar.select
        (IntOp.andi
          (IntOp.cmpi .ne
            (IntOp.cmpi .slt
              (IntOp.remsi .host (s_main_v14 ADJ (ix1 e)) (Scalar.select (IntOp.cmpi .eq 1024#32 0#32) 1#32 1024#32)) 0#32)
            (IntOp.cmpi .slt (Scalar.select (IntOp.cmpi .eq 1024#32 0#32) 1#32 1024#32) 0#32))
          (IntOp.cmpi .ne
            (IntOp.remsi .host (s_main_v14 ADJ (ix1 e)) (Scalar.select (IntOp.cmpi .eq 1024#32 0#32) 1#32 1024#32)) 0#32))
        (IntOp.addi
          (IntOp.remsi .host (s_main_v14 ADJ (ix1 e)) (Scalar.select (IntOp.cmpi .eq 1024#32 0#32) 1#32 1024#32))
          (Scalar.select (IntOp.cmpi .eq 1024#32 0#32) 1#32 1024#32))
        (IntOp.remsi .host (s_main_v14 ADJ (ix1 e)) (Scalar.select (IntOp.cmpi .eq 1024#32 0#32) 1#32 1024#32)) = _
  rw [v14_apply]
  exact Cert.LibWord.rem1024 (le_trans (Nat.div_le_self _ _) (posOf_le ADJ e.val))

theorem v16_apply (ADJ : IVec S1024x1024 32) (e : Fin 1048576) :
    s_main_v16 ADJ (ix1 e) = BitVec.ofNat 32 (posOf ADJ e.val) := by
  show Scalar.select
        (IntOp.andi (IntOp.cmpi .ne (Cert.LibWord.sgn (s_main_v13 ADJ (ix1 e))) (Cert.LibWord.sgn 1#32))
          (IntOp.cmpi .ne (IntOp.remsi .host (s_main_v13 ADJ (ix1 e)) 1#32) 0#32))
        (IntOp.subi (IntOp.divsi .host (s_main_v13 ADJ (ix1 e)) 1#32) 1#32)
        (IntOp.divsi .host (s_main_v13 ADJ (ix1 e)) 1#32) = _
  rw [v13_apply]
  exact Cert.LibWord.fdiv1 (posOf_le ADJ e.val)

theorem v17_apply (ADJ : IVec S1024x1024 32) (e : Fin 1048576) :
    s_main_v17 ADJ (ix1 e) = BitVec.ofNat 32 (posOf ADJ e.val % 1024) := by
  show Scalar.select
        (IntOp.andi
          (IntOp.cmpi .ne
            (IntOp.cmpi .slt
              (IntOp.remsi .host (s_main_v16 ADJ (ix1 e)) (Scalar.select (IntOp.cmpi .eq 1024#32 0#32) 1#32 1024#32)) 0#32)
            (IntOp.cmpi .slt (Scalar.select (IntOp.cmpi .eq 1024#32 0#32) 1#32 1024#32) 0#32))
          (IntOp.cmpi .ne
            (IntOp.remsi .host (s_main_v16 ADJ (ix1 e)) (Scalar.select (IntOp.cmpi .eq 1024#32 0#32) 1#32 1024#32)) 0#32))
        (IntOp.addi
          (IntOp.remsi .host (s_main_v16 ADJ (ix1 e)) (Scalar.select (IntOp.cmpi .eq 1024#32 0#32) 1#32 1024#32))
          (Scalar.select (IntOp.cmpi .eq 1024#32 0#32) 1#32 1024#32))
        (IntOp.remsi .host (s_main_v16 ADJ (ix1 e)) (Scalar.select (IntOp.cmpi .eq 1024#32 0#32) 1#32 1024#32)) = _
  rw [v16_apply]
  exact Cert.LibWord.rem1024 (posOf_le ADJ e.val)

theorem nnz_le (ADJ : IVec S1024x1024 32) : nnz ADJ ≤ 1048576 := Nat.count_le _

theorem v20_apply (ADJ : IVec S1024x1024 32) : s_main_v20 ADJ ix0 = BitVec.ofNat 32 (nnz ADJ) :=
  Cert.ReferenceIdeal.Total.total_count ADJ (nzAt ADJ) (nzAt_iff ADJ)

theorem v22_apply (ADJ : IVec S1024x1024 32) (e : Fin 1048576) :
    s_main_v22 ADJ (ix1 e) = BitVec.ofBool (decide (nnz ADJ ≤ e.val)) := by
  have h21 : s_main_v21 ADJ (ix1 e) = s_main_v20 ADJ ix0 := by
    unfold s_main_v21
    exact broadcastInDim_scalar_apply _ _ _
  show IntOp.cmpi .sge (BitVec.ofNat 32 e.val) (s_main_v21 ADJ (ix1 e)) = _
  rw [h21, v20_apply]
  exact Cert.LibWord.sge_ofNat (by have := e.isLt; omega) (by have := nnz_le ADJ; omega)

theorem src_closed (ADJ : IVec S1024x1024 32) (e : Fin 1048576) :
    s_main_v23 ADJ (ix1 e) = if e.val < nnz ADJ then BitVec.ofNat 32 (posOf ADJ e.val / 1024) else 1024#32 := by
  show Scalar.select (s_main_v22 ADJ (ix1 e)) (s_main_call7_v1 (ix1 e)) (s_main_v15 ADJ (ix1 e)) = _
  rw [v22_apply]
  by_cases h : e.val < nnz ADJ
  · rw [if_pos h, decide_eq_false (Nat.not_le.mpr h)]
    show Scalar.select 0#1 _ _ = _
    rw [select_zero, v15_apply]
    have hlt : posOf ADJ e.val < 1048576 := Cert.Comb.pos_lt _ _ h
    rw [Nat.mod_eq_of_lt (by omega)]
  · rw [if_neg h, decide_eq_true (Nat.le_of_not_lt h)]
    show Scalar.select 1#1 _ _ = _
    rw [select_one]
    rfl

theorem dst_closed (ADJ : IVec S1024x1024 32) (e : Fin 1048576) :
    s_main_v24 ADJ (ix1 e) = if e.val < nnz ADJ then BitVec.ofNat 32 (posOf ADJ e.val % 1024) else 1024#32 := by
  show Scalar.select (s_main_v22 ADJ (ix1 e)) (s_main_call8_v1 (ix1 e)) (s_main_v17 ADJ (ix1 e)) = _
  rw [v22_apply]
  by_cases h : e.val < nnz ADJ
  · rw [if_pos h, decide_eq_false (Nat.not_le.mpr h)]
    show Scalar.select 0#1 _ _ = _
    rw [select_zero, v17_apply]
  · rw [if_neg h, decide_eq_true (Nat.le_of_not_lt h)]
    show Scalar.select 1#1 _ _ = _
    rw [select_one]
    rfl

end Cert.ReferenceIdeal.Closed

end
-- ==== Proof.RefEdge.lean ====
/-
  Summing a function of an edge's endpoints over the edges that start at row i is summing it over the non-zero entries of
  row i of the adjacency matrix.
-/
import proofs.«147569_g13718125543874_cont_sun_m_270_16_alg».proof.Proof.RefClosed
import Idealize.ShloMosaic.Lib.Pipeline.Value
import Idealize.ShloMosaic.Lib.WordArith

noncomputable section

namespace Cert.ReferenceIdeal.Edge

open Idealize.ShloMosaic Idealize.ShloMosaic.ValueIdx Cert.ReferenceIdeal Cert.ReferenceIdeal.Stage Cert.ReferenceIdeal.Closed

theorem sum_range_mul {A : Type*} [AddCommMonoid A] (m n : ℕ) (h : ℕ → A) :
    ∑ p ∈ Finset.range (m * n), h p = ∑ a ∈ Finset.range m, ∑ b ∈ Finset.range n, h (a * n + b) := by
  induction m with
  | zero => simp
  | succ m ih => rw [Nat.add_mul, Nat.one_mul, Finset.sum_range_add, ih, Finset.sum_range_succ]

theorem nzAt_iff (ADJ : IVec S1024x1024 32) (a b : Fin 1024) :
    nzAt ADJ (a.val * 1024 + b.val) ↔ ADJ (ix2 a b) ≠ 0#32 := by
  have ha : (a.val * 1024 + b.val) / 1024 = a.val := by omega
  have hb : (a.val * 1024 + b.val) % 1024 = b.val := by omega
  have hlt : a.val * 1024 + b.val < 1048576 := by omega
  have hcell : ∀ (h1 : (a.val * 1024 + b.val) / 1024 < 1024) (h2 : (a.val * 1024 + b.val) % 1024 < 1024),
      ADJ (ix2 (⟨(a.val * 1024 + b.val) / 1024, h1⟩ : Fin 1024) (⟨(a.val * 1024 + b.val) % 1024, h2⟩ : Fin 1024))
        = ADJ (ix2 a b) :=
    fun _ _ => congrArg₂ (fun u v : Fin 1024 => ADJ (ix2 u v)) (Fin.ext ha) (Fin.ext hb)
  unfold nzAt
  constructor
  · rintro ⟨_, hne⟩
    rwa [hcell] at hne
  · intro hne
    refine ⟨hlt, ?_⟩
    rwa [hcell]

-- The edge list runs through the non-zero entries in row-major order, each once, and its other entries carry a row no i equals.
theorem edge_sum (ADJ : IVec S1024x1024 32) (φ : BitVec 32 → BitVec 32 → EReal) (i : Fin 1024) :
    (∑ e : Fin 1048576, if (s_main_v23 ADJ (ix1 e)).toInt = (i.val : ℤ)
        then φ (s_main_v23 ADJ (ix1 e)) (s_main_v24 ADJ (ix1 e)) else 0)
      = ∑ j : Fin 1024, if ADJ (ix2 i j) ≠ 0#32 then φ (BitVec.ofNat 32 i.val) (BitVec.ofNat 32 j.val) else 0 := by
  have hnn : nnz ADJ ≤ 1048576 := Nat.count_le _
  have hi := i.isLt
  let g : ℕ → EReal := fun p =>
    if p / 1024 = i.val then φ (BitVec.ofNat 32 (p / 1024)) (BitVec.ofNat 32 (p % 1024)) else 0
  let H : ℕ → EReal := fun p => if nzAt ADJ p then g p else 0
  have hterm : ∀ e : Fin 1048576,
      (if (s_main_v23 ADJ (ix1 e)).toInt = (i.val : ℤ) then φ (s_main_v23 ADJ (ix1 e)) (s_main_v24 ADJ (ix1 e)) else 0)
        = (fun k : ℕ => if k < nnz ADJ then g (posOf ADJ k) else 0) e.val := by
    intro e
    show _ = if e.val < nnz ADJ then g (posOf ADJ e.val) else 0
    rw [src_closed, dst_closed]
    by_cases he : e.val < nnz ADJ
    · simp only [if_pos he]
      have hp : posOf ADJ e.val ≤ 1048576 := Cert.Comb.pos_le _ _ _
      rw [WordArith.toInt_ofNat_small _ (by omega)]
      exact if_congr Nat.cast_inj rfl rfl
    · simp only [if_neg he]
      have hne : ¬ ((BitVec.ofNat 32 1024).toInt = (i.val : ℤ)) := by
        rw [WordArith.toInt_ofNat_small 1024 (by norm_num)]
        omega
      exact if_neg hne
  have hfilt : (Finset.range 1048576).filter (fun k => k < nnz ADJ) = Finset.range (nnz ADJ) := by
    ext k
    simp only [Finset.mem_filter, Finset.mem_range]
    omega
  have hpos : ∑ k ∈ Finset.range (nnz ADJ), g (posOf ADJ k) = ∑ p ∈ (Finset.range 1048576).filter (nzAt ADJ), g p :=
    Cert.Comb.sum_pos (nzAt ADJ) 1048576 g
  have hrows : ∑ p ∈ Finset.range (1024 * 1024), H p = ∑ a : Fin 1024, ∑ b : Fin 1024, H (a.val * 1024 + b.val) := by
    rw [sum_range_mul, ← Fin.sum_univ_eq_sum_range (fun a => ∑ b ∈ Finset.range 1024, H (a * 1024 + b)) 1024]
    refine Finset.sum_congr rfl fun a _ => ?_
    exact (Fin.sum_univ_eq_sum_range (fun b => H (a.val * 1024 + b)) 1024).symm
  rw [Finset.sum_congr rfl (fun e _ => hterm e),
    Fin.sum_univ_eq_sum_range (fun k : ℕ => if k < nnz ADJ then g (posOf ADJ k) else 0) 1048576,
    ← Finset.sum_filter, hfilt, hpos, Finset.sum_filter]
  show ∑ p ∈ Finset.range 1048576, H p = _
  rw [show (1048576 : ℕ) = 1024 * 1024 from by norm_num, hrows, Finset.sum_eq_single i]
  · refine Finset.sum_congr rfl fun j _ => ?_
    have ha : (i.val * 1024 + j.val) / 1024 = i.val := by omega
    have hb : (i.val * 1024 + j.val) % 1024 = j.val := by omega
    show (if nzAt ADJ (i.val * 1024 + j.val) then
        (if (i.val * 1024 + j.val) / 1024 = i.val then
          φ (BitVec.ofNat 32 ((i.val * 1024 + j.val) / 1024)) (BitVec.ofNat 32 ((i.val * 1024 + j.val) % 1024)) else 0)
        else 0) = _
    rw [ha, hb, if_pos rfl]
    exact if_congr (nzAt_iff ADJ i j) rfl rfl
  · intro a _ hai
    refine Finset.sum_eq_zero fun b _ => ?_
    have hq : ¬ (a.val * 1024 + b.val) / 1024 = i.val := by
      intro h
      apply hai
      apply Fin.ext
      omega
    show (if nzAt ADJ (a.val * 1024 + b.val) then
        (if (a.val * 1024 + b.val) / 1024 = i.val then
          φ (BitVec.ofNat 32 ((a.val * 1024 + b.val) / 1024)) (BitVec.ofNat 32 ((a.val * 1024 + b.val) % 1024)) else 0)
        else 0) = 0
    rw [if_neg hq, ite_self]
  · intro h
    exact absurd (Finset.mem_univ i) h

theorem v27_row0 (ADJ : IVec S1024x1024 32) (e : Fin 1048576) :
    s_main_v27 ADJ (ix2 (0 : Fin 2) e) = s_main_v23 ADJ (ix1 e) := by
  unfold s_main_v27
  refine (concatenate_pair_apply_left (t := S2x1048576) (s₁ := S1x1048576) (s₂ := S1x1048576) (0 : Fin 2) _ _ _
    (ix2 (0 : Fin 2) e) rfl (ix2 (0 : Fin 1) e) ?_).trans ?_
  · intro b
    fin_cases b <;> rfl
  · unfold s_main_v25
    refine broadcastInDim_apply _ _ _ _ (ix1 e) ?_
    intro a
    obtain rfl : a = 0 := Subsingleton.elim _ _
    show e.val = if (1048576 : ℕ) = 1 then 0 else e.val
    rw [if_neg (by norm_num)]

theorem v27_row1 (ADJ : IVec S1024x1024 32) (e : Fin 1048576) :
    s_main_v27 ADJ (ix2 (1 : Fin 2) e) = s_main_v24 ADJ (ix1 e) := by
  unfold s_main_v27
  refine (concatenate_pair_apply_right (t := S2x1048576) (s₁ := S1x1048576) (s₂ := S1x1048576) (0 : Fin 2) _ _ _
    (ix2 (1 : Fin 2) e) rfl rfl (ix2 (0 : Fin 1) e) ?_ ?_).trans ?_
  · intro b hb
    fin_cases b
    · exact absurd rfl hb
    · rfl
  · rfl
  · unfold s_main_v26
    refine broadcastInDim_apply _ _ _ _ (ix1 e) ?_
    intro a
    obtain rfl : a = 0 := Subsingleton.elim _ _
    show e.val = if (1048576 : ℕ) = 1 then 0 else e.val
    rw [if_neg (by norm_num)]

theorem cmpi_slt_zero_of_nonneg (w : BitVec 32) (h : 0 ≤ w.toInt) : IntOp.cmpi .slt w 0#32 = 0#1 := by
  have hf : w.slt 0#32 = false := by
    simp only [BitVec.slt, BitVec.toInt_zero, decide_eq_false_iff_not, not_lt]
    exact h
  show BitVec.ofBool (w.slt 0#32) = 0#1
  rw [hf]
  rfl

theorem rederived_row (x : IVec S2x1048576 32) (r : Fin 2) (off : Fin 2 → ℕ) (hoff : off = ![r.val, 0])
    (hs : S2x1048576.Slices off S1x1048576) (hc : S1x1048576.ShapeCasts S1048576)
    (hb : S1048576.BroadcastsInDim S1048576x1 ![0])
    (zero c : IVec S1048576 32) (hz : ∀ i, zero i = 0#32) (e : Fin 1048576)
    (h0 : 0 ≤ (x (ix2 r e)).toInt) :
    broadcastInDim S1048576x1 ![0] hb
      (select (cmpi .slt (shapeCast S1048576 (extractStridedSlice S1x1048576 off x hs) hc) zero)
        (addi (shapeCast S1048576 (extractStridedSlice S1x1048576 off x hs) hc) c)
        (shapeCast S1048576 (extractStridedSlice S1x1048576 off x hs) hc)) (ix2 e (0 : Fin 1))
      = x (ix2 r e) := by
  subst hoff
  have hy : shapeCast S1048576 (extractStridedSlice S1x1048576 ![r.val, 0] x hs) hc (ix1 e) = x (ix2 r e) := by
    refine (shapeCast_apply _ hc (ix1 e) (ix2 (0 : Fin 1) e) ?_).trans ?_
    · rw [Shape.rowMajor_val_two, Shape.rowMajor_val_one]
      show 0 * 1048576 + e.val = e.val
      omega
    · refine extractStridedSlice_apply _ x hs _ (ix2 r e) ?_
      intro a
      fin_cases a
      · show r.val = r.val + 0
        rfl
      · show e.val = 0 + e.val
        omega
  refine (broadcastInDim_apply _ hb _ (ix2 e (0 : Fin 1)) (ix1 e) ?_).trans ?_
  · intro a
    obtain rfl : a = 0 := Subsingleton.elim _ _
    show e.val = if (1048576 : ℕ) = 1 then 0 else e.val
    rw [if_neg (by norm_num)]
  · have hbit : cmpi .slt (shapeCast S1048576 (extractStridedSlice S1x1048576 ![r.val, 0] x hs) hc) zero (ix1 e) = 0#1 := by
      show IntOp.cmpi .slt (shapeCast S1048576 (extractStridedSlice S1x1048576 ![r.val, 0] x hs) hc (ix1 e)) (zero (ix1 e)) = 0#1
      rw [hy, hz]
      exact cmpi_slt_zero_of_nonneg _ h0
    rw [select_apply, hbit, select_zero, hy]

theorem v23_nonneg (ADJ : IVec S1024x1024 32) (e : Fin 1048576) : 0 ≤ (s_main_v23 ADJ (ix1 e)).toInt := by
  rw [src_closed]
  have hp : posOf ADJ e.val ≤ 1048576 := Cert.Comb.pos_le _ _ _
  split
  · rw [WordArith.toInt_ofNat_small _ (by omega)]
    exact Int.natCast_nonneg _
  · show 0 ≤ (BitVec.ofNat 32 1024).toInt
    rw [WordArith.toInt_ofNat_small 1024 (by norm_num)]
    norm_num

theorem v24_nonneg (ADJ : IVec S1024x1024 32) (e : Fin 1048576) : 0 ≤ (s_main_v24 ADJ (ix1 e)).toInt := by
  rw [dst_closed]
  split
  · rw [WordArith.toInt_ofNat_small _ (by omega)]
    exact Int.natCast_nonneg _
  · show 0 ≤ (BitVec.ofNat 32 1024).toInt
    rw [WordArith.toInt_ofNat_small 1024 (by norm_num)]
    norm_num

theorem rederived_row0 (ADJ : IVec S1024x1024 32) (hs : S2x1048576.Slices ![0, 0] S1x1048576)
    (hc : S1x1048576.ShapeCasts S1048576) (hb : S1048576.BroadcastsInDim S1048576x1 ![0])
    (zero c : IVec S1048576 32) (hz : ∀ i, zero i = 0#32) (e : Fin 1048576) :
    broadcastInDim S1048576x1 ![0] hb
      (select (cmpi .slt (shapeCast S1048576 (extractStridedSlice S1x1048576 ![0, 0] (s_main_v27 ADJ) hs) hc) zero)
        (addi (shapeCast S1048576 (extractStridedSlice S1x1048576 ![0, 0] (s_main_v27 ADJ) hs) hc) c)
        (shapeCast S1048576 (extractStridedSlice S1x1048576 ![0, 0] (s_main_v27 ADJ) hs) hc)) (ix2 e (0 : Fin 1))
      = s_main_v23 ADJ (ix1 e) :=
  (rederived_row (s_main_v27 ADJ) 0 ![0, 0] rfl hs hc hb zero c hz e
    (by rw [v27_row0]; exact v23_nonneg ADJ e)).trans (v27_row0 ADJ e)

theorem rederived_row1 (ADJ : IVec S1024x1024 32) (hs : S2x1048576.Slices ![1, 0] S1x1048576)
    (hc : S1x1048576.ShapeCasts S1048576) (hb : S1048576.BroadcastsInDim S1048576x1 ![0])
    (zero c : IVec S1048576 32) (hz : ∀ i, zero i = 0#32) (e : Fin 1048576) :
    broadcastInDim S1048576x1 ![0] hb
      (select (cmpi .slt (shapeCast S1048576 (extractStridedSlice S1x1048576 ![1, 0] (s_main_v27 ADJ) hs) hc) zero)
        (addi (shapeCast S1048576 (extractStridedSlice S1x1048576 ![1, 0] (s_main_v27 ADJ) hs) hc) c)
        (shapeCast S1048576 (extractStridedSlice S1x1048576 ![1, 0] (s_main_v27 ADJ) hs) hc)) (ix2 e (0 : Fin 1))
      = s_main_v24 ADJ (ix1 e) :=
  (rederived_row (s_main_v27 ADJ) 1 ![1, 0] rfl hs hc hb zero c hz e
    (by rw [v27_row1]; exact v24_nonneg ADJ e)).trans (v27_row1 ADJ e)

theorem v36_apply (ADJ : IVec S1024x1024 32) (e : Fin 1048576) : s_main_v36 ADJ (ix2 e (0 : Fin 1)) = s_main_v23 ADJ (ix1 e) :=
  rederived_row0 ADJ Facts₀.slices_S2x1048576_S1x1048576_0_0 Facts₀.shapeCasts_S1x1048576_S1048576
    Facts₀.bcast_S1048576_S1048576x1_0 s_main_v31 s_main_v33 (fun _ => rfl) e
theorem v45_apply (ADJ : IVec S1024x1024 32) (e : Fin 1048576) : s_main_v45 ADJ (ix2 e (0 : Fin 1)) = s_main_v24 ADJ (ix1 e) :=
  rederived_row1 ADJ Facts₀.slices_S2x1048576_S1x1048576_1_0 Facts₀.shapeCasts_S1x1048576_S1048576
    Facts₀.bcast_S1048576_S1048576x1_0 s_main_v40 s_main_v42 (fun _ => rfl) e
theorem v64_apply (ADJ : IVec S1024x1024 32) (e : Fin 1048576) : s_main_v64 ADJ (ix2 e (0 : Fin 1)) = s_main_v23 ADJ (ix1 e) :=
  rederived_row0 ADJ Facts₀.slices_S2x1048576_S1x1048576_0_0 Facts₀.shapeCasts_S1x1048576_S1048576
    Facts₀.bcast_S1048576_S1048576x1_0 s_main_v59 s_main_v61 (fun _ => rfl) e
theorem v77_apply (ADJ : IVec S1024x1024 32) (e : Fin 1048576) : s_main_v77 ADJ (ix2 e (0 : Fin 1)) = s_main_v24 ADJ (ix1 e) :=
  rederived_row1 ADJ Facts₀.slices_S2x1048576_S1x1048576_1_0 Facts₀.shapeCasts_S1x1048576_S1048576
    Facts₀.bcast_S1048576_S1048576x1_0 s_main_v72 s_main_v74 (fun _ => rfl) e
theorem v86_apply (ADJ : IVec S1024x1024 32) (e : Fin 1048576) : s_main_v86 ADJ (ix2 e (0 : Fin 1)) = s_main_v23 ADJ (ix1 e) :=
  rederived_row0 ADJ Facts₀.slices_S2x1048576_S1x1048576_0_0 Facts₀.shapeCasts_S1x1048576_S1048576
    Facts₀.bcast_S1048576_S1048576x1_0 s_main_v81 s_main_v83 (fun _ => rfl) e

end Cert.ReferenceIdeal.Edge

end
-- ==== Proof.RefValue.lean ====
/-
  The reference's result is the layer of the specification, index by index.
-/
import proofs.«147569_g13718125543874_cont_sun_m_270_16_alg».proof.Proof.RefLogit
import proofs.«147569_g13718125543874_cont_sun_m_270_16_alg».proof.Proof.RefEdge
import proofs.«147569_g13718125543874_cont_sun_m_270_16_alg».proof.Proof.LibScatter
import Idealize.ShloMosaic.Lib.IdealHost
import Idealize.ShloMosaic.Lib.Pipeline.Value

open scoped BigOperators

noncomputable section

namespace Cert.ReferenceIdeal.Value

open Idealize.ShloMosaic Idealize.ShloMosaic.ValueIdx Cert.ReferenceIdeal Cert.ReferenceIdeal.Stage Cert.ReferenceIdeal.Logit

theorem col_apply {α : Type} {n : Nat} (h : (⟨1, ![n]⟩ : Shape).BroadcastsInDim ⟨2, ![n, 1]⟩ ![0])
    (x : (⟨1, ![n]⟩ : Shape).Idx → α) (e : Fin n) (c : Fin 1) :
    broadcastInDim ⟨2, ![n, 1]⟩ ![0] h x (ix2 e c) = x (ix1 e) := by
  refine broadcastInDim_apply _ h x _ _ ?_
  intro a
  match a with
  | ⟨0, _⟩ =>
    show e.val = if n = 1 then 0 else e.val
    by_cases h1 : n = 1
    · rw [if_pos h1]; have := e.isLt; omega
    · rw [if_neg h1]

theorem rep_apply {α : Type} {n m : Nat} (h : (⟨2, ![n, 1]⟩ : Shape).BroadcastsInDim ⟨2, ![n, m]⟩ ![0, 1])
    (x : (⟨2, ![n, 1]⟩ : Shape).Idx → α) (e : Fin n) (k : Fin m) :
    broadcastInDim ⟨2, ![n, m]⟩ ![0, 1] h x (ix2 e k) = x (ix2 e 0) := by
  refine broadcastInDim_apply _ h x _ _ ?_
  intro a
  match a with
  | ⟨0, _⟩ =>
    show e.val = if n = 1 then 0 else e.val
    by_cases h1 : n = 1
    · rw [if_pos h1]; have := e.isLt; omega
    · rw [if_neg h1]
  | ⟨1, _⟩ =>
    exact (if_pos rfl).symm

theorem v55_apply (j : S1024x1.Idx) : s_main_v55 (F := Ideal) j = 0 := by
  unfold s_main_v55 s_main_cst_16
  rw [broadcastInDim_scalar_apply, constant_apply, Ideal.ofBits_zero_f32]

theorem v58_apply (X : FVec Ideal S1024x128 .f32) (ADJ : IVec S1024x1024 32) (W : FVec Ideal S128x128 .f32)
    (A : FVec Ideal S256x1 .f32) (e : Fin 1048576) (c : Fin 1) :
    s_main_v58 (F := Ideal) X ADJ W A (ix2 e c) = s_main_v54 (F := Ideal) X ADJ W A (ix1 e) := by
  unfold s_main_v58
  exact col_apply _ _ e c

abbrev nzOf (ADJ : IVec S1024x1024 32) : Fin 1024 → Fin 1024 → Prop := fun i j => ADJ (ix2 i j) ≠ 0#32

abbrev attOf (X : FVec Ideal S1024x128 .f32) (ADJ : IVec S1024x1024 32) (W : FVec Ideal S128x128 .f32)
    (A : FVec Ideal S256x1 .f32) : Fin 1024 → Fin 1024 → EReal :=
  Cert.Gat.att (nzOf ADJ) (Cert.Gat.s1 (hOf X W) (a1Of A)) (Cert.Gat.s2 (hOf X W) (a2Of A))

abbrev wOfEdge (X : FVec Ideal S1024x128 .f32) (W : FVec Ideal S128x128 .f32) (A : FVec Ideal S256x1 .f32)
    (s d : BitVec 32) : EReal :=
  Cert.Gat.wgt (Cert.Gat.s1 (hOf X W) (a1Of A) (clampI s) + Cert.Gat.s2 (hOf X W) (a2Of A) (clampI d))

theorem v65_apply (X : FVec Ideal S1024x128 .f32) (ADJ : IVec S1024x1024 32) (W : FVec Ideal S128x128 .f32)
    (A : FVec Ideal S256x1 .f32) (i : Fin 1024) (c : Fin 1) :
    s_main_v65 (F := Ideal) X ADJ W A (ix2 i c) = ∑ j : Fin 1024, attOf X ADJ W A i j := by
  unfold s_main_v65
  beta_reduce
  rw [Cert.LibScatter.row1_scatterAdd_apply, v55_apply, zero_add]
  have hterm : ∀ e : Fin 1048576,
      (if (s_main_v64 ADJ (ix2 e 0)).toInt = (i.val : ℤ) then s_main_v58 (F := Ideal) X ADJ W A (ix2 e c) else 0)
        = if (s_main_v23 ADJ (ix1 e)).toInt = (i.val : ℤ)
            then wOfEdge X W A (s_main_v23 ADJ (ix1 e)) (s_main_v24 ADJ (ix1 e)) else 0 := by
    intro e
    rw [Edge.v64_apply, v58_apply, v54_apply X ADJ W A (Edge.v36_apply ADJ) (Edge.v45_apply ADJ) e]
  rw [Finset.sum_congr rfl (fun e _ => hterm e), Edge.edge_sum ADJ (wOfEdge X W A) i]
  refine Finset.sum_congr rfl (fun j _ => ?_)
  show _ = if ADJ (ix2 i j) ≠ 0#32 then _ else 0
  unfold wOfEdge
  rw [clampI_ofNat, clampI_ofNat]

theorem v66_apply (j : S1024x128.Idx) : s_main_v66 (F := Ideal) j = 0 := by
  unfold s_main_v66 s_main_cst_19
  rw [broadcastInDim_scalar_apply, constant_apply, Ideal.ofBits_zero_f32]

theorem v80_apply (X : FVec Ideal S1024x128 .f32) (ADJ : IVec S1024x1024 32) (W : FVec Ideal S128x128 .f32)
    (A : FVec Ideal S256x1 .f32) (e : Fin 1048576) (k : Fin 128) :
    s_main_v80 (F := Ideal) X ADJ W A (ix2 e k)
      = s_main_v54 (F := Ideal) X ADJ W A (ix1 e) * hOf X W (clampI (s_main_v24 ADJ (ix1 e))) k := by
  unfold s_main_v80
  rw [mulf_apply, v78_apply X ADJ W (Edge.v77_apply ADJ) e k]
  unfold s_main_v79 s_main_v69
  rw [rep_apply, col_apply]

theorem v87_apply (X : FVec Ideal S1024x128 .f32) (ADJ : IVec S1024x1024 32) (W : FVec Ideal S128x128 .f32)
    (A : FVec Ideal S256x1 .f32) (i : Fin 1024) (k : Fin 128) :
    s_main_v87 (F := Ideal) X ADJ W A (ix2 i k) = ∑ j : Fin 1024, attOf X ADJ W A i j * hOf X W j k := by
  unfold s_main_v87
  beta_reduce
  rw [Cert.LibScatter.row128_scatterAdd_apply, v66_apply, zero_add]
  have hterm : ∀ e : Fin 1048576,
      (if (s_main_v86 ADJ (ix2 e 0)).toInt = (i.val : ℤ) then s_main_v80 (F := Ideal) X ADJ W A (ix2 e k) else 0)
        = if (s_main_v23 ADJ (ix1 e)).toInt = (i.val : ℤ)
            then (fun s d => wOfEdge X W A s d * hOf X W (clampI d) k) (s_main_v23 ADJ (ix1 e)) (s_main_v24 ADJ (ix1 e))
            else 0 := by
    intro e
    rw [Edge.v86_apply, v80_apply, v54_apply X ADJ W A (Edge.v36_apply ADJ) (Edge.v45_apply ADJ) e]
  rw [Finset.sum_congr rfl (fun e _ => hterm e),
    Edge.edge_sum ADJ (fun s d => wOfEdge X W A s d * hOf X W (clampI d) k) i]
  refine Finset.sum_congr rfl (fun j _ => ?_)
  show _ = (if ADJ (ix2 i j) ≠ 0#32 then _ else 0) * _
  unfold wOfEdge
  rw [ite_mul, zero_mul, clampI_ofNat, clampI_ofNat]

theorem v88_apply (j : S1024x1.Idx) : s_main_v88 (F := Ideal) j = Cert.Gat.eps := by
  unfold s_main_v88 s_main_cst_24
  rw [broadcastInDim_scalar_apply, constant_apply]
  rfl

theorem v91_apply (X : FVec Ideal S1024x128 .f32) (ADJ : IVec S1024x1024 32) (W : FVec Ideal S128x128 .f32)
    (A : FVec Ideal S256x1 .f32) (i : Fin 1024) (k : Fin 128) :
    s_main_v91 (F := Ideal) X ADJ W A (ix2 i k)
      = Ideal.div (∑ j : Fin 1024, attOf X ADJ W A i j * hOf X W j k)
          ((∑ j : Fin 1024, attOf X ADJ W A i j) + Cert.Gat.eps) := by
  unfold s_main_v91
  rw [hostDivf_apply, v87_apply]
  unfold s_main_v90
  rw [rep_apply]
  unfold s_main_v89
  rw [addf_apply, v65_apply, v88_apply]

theorem elu_spelt (v : EReal) :
    Scalar.select (Ideal.cmp .ogt v 0) v (1 * (Ideal.exp (Scalar.select (Ideal.cmp .ogt v 0) 0 v) - 1))
      = Cert.Gat.elu v := by
  unfold Cert.Gat.elu
  by_cases h : (0 : EReal) < v
  · have hc : Ideal.cmp .ogt v 0 = 1#1 := by
      show BitVec.ofBool (decide (0 < v)) = 1#1
      rw [decide_eq_true h]; rfl
    rw [hc, select_one, if_pos h]
  · have hc : Ideal.cmp .ogt v 0 = 0#1 := by
      show BitVec.ofBool (decide (0 < v)) = 0#1
      rw [decide_eq_false h]; rfl
    rw [hc, select_zero, select_zero, if_neg h, one_mul, min_eq_left (not_lt.mp h)]

theorem expm1_apply {s : Shape} {φ : FTy} (x : FVec Ideal s φ) (j : s.Idx) :
    Host.expm1 x j = Ideal.exp (x j) - 1 := rfl

theorem call10_v0_apply (j : S1024x128.Idx) : s_main_call10_v0 (F := Ideal) j = 0 := by
  unfold s_main_call10_v0 s_main_call10_cst
  rw [broadcastInDim_scalar_apply, constant_apply, Ideal.ofBits_zero_f32]

theorem call10_v2_apply (j : S1024x128.Idx) : s_main_call10_v2 (F := Ideal) j = 0 := by
  unfold s_main_call10_v2 s_main_call10_cst_0
  rw [broadcastInDim_scalar_apply, constant_apply, Ideal.ofBits_zero_f32]

theorem call10_call0_v1_apply (j : S1024x128.Idx) : s_main_call10_call0_v1 (F := Ideal) j = 0 := by
  unfold s_main_call10_call0_v1 s_main_call10_call0_v0 s_main_call10_cst_1
  rw [broadcastInDim_scalar_apply]
  show constant (F := Ideal) S_ .f32 0x00000000#32 ix0 = 0
  rw [constant_apply, Ideal.ofBits_zero_f32]

theorem call10_v6_apply (j : S1024x128.Idx) : s_main_call10_v6 (F := Ideal) j = 1 := by
  unfold s_main_call10_v6 s_main_call10_cst_2
  rw [broadcastInDim_scalar_apply, constant_apply, Ideal.ofBits_one_f32]

theorem v92_apply (X : FVec Ideal S1024x128 .f32) (ADJ : IVec S1024x1024 32) (W : FVec Ideal S128x128 .f32)
    (A : FVec Ideal S256x1 .f32) (j : S1024x128.Idx) :
    s_main_v92 (F := Ideal) X ADJ W A j = Cert.Gat.elu (s_main_v91 (F := Ideal) X ADJ W A j) := by
  unfold s_main_v92
  rw [select_apply]
  unfold s_main_call10_v1 s_main_call10_v7
  rw [cmpf_apply, mulf_apply, call10_v0_apply, call10_v6_apply]
  unfold s_main_call10_v5
  rw [expm1_apply]
  unfold s_main_call10_v4
  rw [select_apply]
  unfold s_main_call10_v3
  rw [cmpf_apply, call10_v2_apply, call10_call0_v1_apply]
  generalize s_main_v91 (F := Ideal) X ADJ W A j = v
  exact elu_spelt v

-- The two scattered sums over the edge list are the row's sums over its non-zero entries, so the quotient under elu is the layer's.
theorem ref_eq_spec (X : FVec Ideal S1024x128 .f32) (ADJ : IVec S1024x1024 32) (W : FVec Ideal S128x128 .f32)
    (A : FVec Ideal S256x1 .f32) (i : Fin 1024) (k : Fin 128) :
    s_main_v92 (F := Ideal) X ADJ W A (ix2 i k)
      = Cert.Gat.out (xOf X) (fun i j => ADJ (ix2 i j) ≠ 0#32) (wOf W) (a1Of A) (a2Of A) i k := by
  rw [v92_apply, v91_apply]
  unfold Cert.Gat.out Cert.Gat.rowOut
  rfl

end Cert.ReferenceIdeal.Value

end
-- ==== Proof.lean ====
/-
  A dense masked graph-attention kernel against its edge-list reference, over the extended reals: both results are the
  layer of the specification, index by index, so from arguments that agree the two programs end with equal results.
-/
import proofs.«147569_g13718125543874_cont_sun_m_270_16_alg».proof.Defs
import proofs.«147569_g13718125543874_cont_sun_m_270_16_alg».proof.Proof.Gen.Kernel
import proofs.«147569_g13718125543874_cont_sun_m_270_16_alg».proof.Proof.Gen.KernelIdeal
import proofs.«147569_g13718125543874_cont_sun_m_270_16_alg».proof.Proof.Gen.ReferenceIdeal
import proofs.«147569_g13718125543874_cont_sun_m_270_16_alg».proof.Proof.Gen.Pre_finite_inputs
import proofs.«147569_g13718125543874_cont_sun_m_270_16_alg».proof.Proof.KFrameBits
import proofs.«147569_g13718125543874_cont_sun_m_270_16_alg».proof.Proof.KFrameIdeal
import proofs.«147569_g13718125543874_cont_sun_m_270_16_alg».proof.Proof.KValue
import proofs.«147569_g13718125543874_cont_sun_m_270_16_alg».proof.Proof.RefRun
import proofs.«147569_g13718125543874_cont_sun_m_270_16_alg».proof.Proof.RefValue

noncomputable section

namespace Cert.Proof

open Idealize.ShloMosaic Idealize.ShloMosaic.ValueIdx Idealize.SL.Sem

theorem values_agree (X : FVec Ideal Cert.ReferenceIdeal.S1024x128 .f32) (ADJ : IVec Cert.ReferenceIdeal.S1024x1024 32)
    (W : FVec Ideal Cert.ReferenceIdeal.S128x128 .f32) (A : FVec Ideal Cert.ReferenceIdeal.S256x1 .f32) :
    Cert.ReferenceIdeal.Stage.s_main_v92 (F := Ideal) X ADJ W A = Cert.KernelIdeal.Hand.kout (F := Ideal) X ADJ W A := by
  funext j
  obtain ⟨i, k, rfl⟩ : ∃ (i : Fin 1024) (k : Fin 128), j = ix2 i k := ⟨j 0, j 1, eq_ix2 j⟩
  rw [Cert.ReferenceIdeal.Value.ref_eq_spec X ADJ W A i k]
  exact (Cert.KernelIdeal.Hand.kout_eq_spec X ADJ W A i k).symm

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Run.run (F := Ideal) m ρ)

theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2]
  exact values_agree _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
